-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3000x512 : Shape := ⟨2, ![3000, 512]⟩
abbrev S2x200000 : Shape := ⟨2, ![2, 200000]⟩
abbrev S128x512 : Shape := ⟨2, ![128, 512]⟩
abbrev S128x256 : Shape := ⟨2, ![128, 256]⟩
abbrev S128 : Shape := ⟨1, ![128]⟩
abbrev S1x128 : Shape := ⟨2, ![1, 128]⟩
abbrev S1 : Shape := ⟨1, ![1]⟩
abbrev S512x512 : Shape := ⟨2, ![512, 512]⟩
abbrev S512x1024 : Shape := ⟨2, ![512, 1024]⟩
abbrev S_ : Shape := ⟨0, ![]⟩

class Facts : Prop where
  bcast_S_S3000x512 : S_.BroadcastsInDim S3000x512 (![] : Fin 0 → Fin S3000x512.rank)
  reducesTo_S3000x512_S_d0_1 : S3000x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S512x512 : S_.BroadcastsInDim S512x512 (![] : Fin 0 → Fin S512x512.rank)
  reducesTo_S512x512_S_d0_1 : S512x512.ReducesTo [0, 1] S_
  bcast_S_S512x1024 : S_.BroadcastsInDim S512x1024 (![] : Fin 0 → Fin S512x1024.rank)
  reducesTo_S512x1024_S_d0_1 : S512x1024.ReducesTo [0, 1] S_
  bcast_S_S2x200000 : S_.BroadcastsInDim S2x200000 (![] : Fin 0 → Fin S2x200000.rank)
  reducesTo_S2x200000_S_d0_1 : S2x200000.ReducesTo [0, 1] S_

variable [Facts]

def fn_part3 {F : FTy → Type} [FloatOps F] (main_arg3 : IVec S2x200000 32) (main_arg12 : FVec F S512x1024 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512x1024 .f32 := Host.absf main_arg12
  let main_cst_20 : FVec F S_ .f32 := constant S_ .f32 0x7F800000#32
  let main_v55 : FVec F S512x1024 .f32 := broadcastInDim S512x1024 ![] bcast_S_S512x1024 main_cst_20
  let main_v56 : IVec S512x1024 1 := cmpf .olt main_v54 main_v55
  let main_c_21 : IVec S_ 1 := constantI S_ 1 1#1
  let main_v57 : IVec S_ 1 := (fun x v => Host.reduce IntOp.andi x v reducesTo_S512x1024_S_d0_1 h_S_) main_v56 main_c_21
  let main_v58 : IVec S_ 1 := andi main_v53 main_v57
  let main_c_22 : IVec S_ 32 := constantI S_ 32 0#32
  let main_v59 : IVec S2x200000 32 := broadcastInDim S2x200000 ![] bcast_S_S2x200000 main_c_22
  let main_v60 : IVec S2x200000 1 := cmpi .sge main_arg3 main_v59
  let main_c_23 : IVec S_ 32 := constantI S_ 32 9000#32
  let main_v61 : IVec S2x200000 32 := broadcastInDim S2x200000 ![] bcast_S_S2x200000 main_c_23
  let main_v62 : IVec S2x200000 1 := cmpi .slt main_arg3 main_v61
  let main_v63 : IVec S2x200000 1 := andi main_v60 main_v62
  let main_c_24 : IVec S_ 1 := constantI S_ 1 1#1
  let main_v64 : IVec S_ 1 := (fun x v => Host.reduce IntOp.andi x v reducesTo_S2x200000_S_d0_1 h_S_) main_v63 main_c_24
  let main_v65 : IVec S_ 1 := andi main_v58 main_v64
  main_v65

def fn_part2 {F : FTy → Type} [FloatOps F] (main_arg3 : IVec S2x200000 32) (main_arg8 : FVec F S1 .f32) (main_arg9 : FVec F S512x512 .f32) (main_arg10 : FVec F S512x1024 .f32) (main_arg11 : FVec F S512x512 .f32) (main_arg12 : FVec F S512x1024 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x1024 .f32 := Host.absf main_arg10
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S512x512 .f32 := Host.absf main_arg11
  let main_cst_18 : FVec F S_ .f32 := constant S_ .f32 0x7F800000#32
  let main_v50 : FVec F S512x512 .f32 := broadcastInDim S512x512 ![] bcast_S_S512x512 main_cst_18
  fn_part3 (F := F) main_arg3 main_arg12 main_v48 main_v49 main_v50

def fn_part1 {F : FTy → Type} [FloatOps F] (main_arg3 : IVec S2x200000 32) (main_arg5 : FVec F S128x256 .f32) (main_arg6 : FVec F S128 .f32) (main_arg7 : FVec F S1x128 .f32) (main_arg8 : FVec F S1 .f32) (main_arg9 : FVec F S512x512 .f32) (main_arg10 : FVec F S512x1024 .f32) (main_arg11 : FVec F S512x512 .f32) (main_arg12 : FVec F S512x1024 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1x128 .f32 := Host.absf main_arg7
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg3 main_arg8 main_arg9 main_arg10 main_arg11 main_arg12 main_v33

def fn {F : FTy → Type} [FloatOps F] (main_arg0 : FVec F S3000x512 .f32) (main_arg1 : FVec F S3000x512 .f32) (main_arg2 : FVec F S3000x512 .f32) (main_arg3 : IVec S2x200000 32) (main_arg4 : FVec F S128x512 .f32) (main_arg5 : FVec F S128x256 .f32) (main_arg6 : FVec F S128 .f32) (main_arg7 : FVec F S1x128 .f32) (main_arg8 : FVec F S1 .f32) (main_arg9 : FVec F S512x512 .f32) (main_arg10 : FVec F S512x1024 .f32) (main_arg11 : FVec F S512x512 .f32) (main_arg12 : FVec F S512x1024 .f32) : IVec S_ 1 :=
  let main_v0 : FVec F S3000x512 .f32 := Host.absf main_arg0
  let main_cst : FVec F S_ .f32 := constant S_ .f32 0x7F800000#32
  let main_v1 : FVec F S3000x512 .f32 := broadcastInDim S3000x512 ![] bcast_S_S3000x512 main_cst
  let main_v2 : IVec S3000x512 1 := cmpf .olt main_v0 main_v1
  let main_c : IVec S_ 1 := constantI S_ 1 1#1
  let main_v3 : IVec S_ 1 := (fun x v => Host.reduce IntOp.andi x v reducesTo_S3000x512_S_d0_1 h_S_) main_v2 main_c
  let main_v4 : FVec F S3000x512 .f32 := Host.absf main_arg1
  let main_cst_0 : FVec F S_ .f32 := constant S_ .f32 0x7F800000#32
  let main_v5 : FVec F S3000x512 .f32 := broadcastInDim S3000x512 ![] bcast_S_S3000x512 main_cst_0
  let main_v6 : IVec S3000x512 1 := cmpf .olt main_v4 main_v5
  let main_c_1 : IVec S_ 1 := constantI S_ 1 1#1
  let main_v7 : IVec S_ 1 := (fun x v => Host.reduce IntOp.andi x v reducesTo_S3000x512_S_d0_1 h_S_) main_v6 main_c_1
  let main_v8 : IVec S_ 1 := andi main_v3 main_v7
  let main_v9 : FVec F S3000x512 .f32 := Host.absf main_arg2
  let main_cst_2 : FVec F S_ .f32 := constant S_ .f32 0x7F800000#32
  let main_v10 : FVec F S3000x512 .f32 := broadcastInDim S3000x512 ![] bcast_S_S3000x512 main_cst_2
  let main_v11 : IVec S3000x512 1 := cmpf .olt main_v9 main_v10
  let main_c_3 : IVec S_ 1 := constantI S_ 1 1#1
  let main_v12 : IVec S_ 1 := (fun x v => Host.reduce IntOp.andi x v reducesTo_S3000x512_S_d0_1 h_S_) main_v11 main_c_3
  let main_v13 : IVec S_ 1 := andi main_v8 main_v12
  let main_v14 : FVec F S128x512 .f32 := Host.absf main_arg4
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg3 main_arg5 main_arg6 main_arg7 main_arg8 main_arg9 main_arg10 main_arg11 main_arg12 main_v13 main_v16
-- ==== Kernel.lean ====
abbrev S3000x512 : Shape := ⟨2, ![3000, 512]⟩
abbrev S2x200000 : Shape := ⟨2, ![2, 200000]⟩
abbrev S128x512 : Shape := ⟨2, ![128, 512]⟩
abbrev S128x256 : Shape := ⟨2, ![128, 256]⟩
abbrev S128 : Shape := ⟨1, ![128]⟩
abbrev S1x128 : Shape := ⟨2, ![1, 128]⟩
abbrev S1 : Shape := ⟨1, ![1]⟩
abbrev S512x512 : Shape := ⟨2, ![512, 512]⟩
abbrev S512x1024 : Shape := ⟨2, ![512, 1024]⟩
abbrev S9000x512 : Shape := ⟨2, ![9000, 512]⟩
abbrev S1x200000 : Shape := ⟨2, ![1, 200000]⟩
abbrev S200000 : Shape := ⟨1, ![200000]⟩
abbrev S512x128 : Shape := ⟨2, ![512, 128]⟩
abbrev S9000x128 : Shape := ⟨2, ![9000, 128]⟩
abbrev S_ : Shape := ⟨0, ![]⟩
abbrev S9000 : Shape := ⟨1, ![9000]⟩
abbrev S9000x1 : Shape := ⟨2, ![9000, 1]⟩
abbrev S200000x1 : Shape := ⟨2, ![200000, 1]⟩
abbrev S200000x128 : Shape := ⟨2, ![200000, 128]⟩
abbrev S200000x256 : Shape := ⟨2, ![200000, 256]⟩
abbrev S256x128 : Shape := ⟨2, ![256, 128]⟩
abbrev S128x1 : Shape := ⟨2, ![128, 1]⟩
abbrev S1x1 : Shape := ⟨2, ![1, 1]⟩
abbrev S9088x9088 : Shape := ⟨2, ![9088, 9088]⟩
abbrev S200000x2 : Shape := ⟨2, ![200000, 2]⟩
abbrev S9088x512 : Shape := ⟨2, ![9088, 512]⟩
abbrev S128x9088 : Shape := ⟨2, ![128, 9088]⟩

abbrev nBuf : Space → Nat
  | .hbm => 154
  | .vmem => 28
  | .smem => 0
  | _ => 0

abbrev hbmTy0_0 (i : Nat) : BufTy := match i % 128 with
  | 0 => ⟨S3000x512, .f32⟩
  | 1 => ⟨S3000x512, .f32⟩
  | 2 => ⟨S3000x512, .f32⟩
  | 3 => ⟨S2x200000, .i32⟩
  | 4 => ⟨S128x512, .f32⟩
  | 5 => ⟨S128x256, .f32⟩
  | 6 => ⟨S128, .f32⟩
  | 7 => ⟨S1x128, .f32⟩
  | 8 => ⟨S1, .f32⟩
  | 9 => ⟨S512x512, .f32⟩
  | 10 => ⟨S512x1024, .f32⟩
  | 11 => ⟨S512x512, .f32⟩
  | 12 => ⟨S512x1024, .f32⟩
  | 13 => ⟨S9000x512, .f32⟩
  | 14 => ⟨S1x200000, .i32⟩
  | 15 => ⟨S200000, .i32⟩
  | 16 => ⟨S1x200000, .i32⟩
  | 17 => ⟨S200000, .i32⟩
  | 18 => ⟨S512x128, .f32⟩
  | 19 => ⟨S9000x128, .f32⟩
  | 20 => ⟨S9000x128, .f32⟩
  | 21 => ⟨S_, .f32⟩
  | 22 => ⟨S9000, .f32⟩
  | 23 => ⟨S9000x1, .f32⟩
  | 24 => ⟨S9000x1, .f32⟩
  | 25 => ⟨S_, .f32⟩
  | 26 => ⟨S9000x1, .f32⟩
  | 27 => ⟨S9000x1, .f32⟩
  | 28 => ⟨S9000x128, .f32⟩
  | 29 => ⟨S9000x128, .f32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S200000x128, .f32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S200000x128, .f32⟩
  | 48 => ⟨S200000x256, .f32⟩
  | 49 => ⟨S256x128, .f32⟩
  | 50 => ⟨S200000x128, .f32⟩
  | 51 => ⟨S1x128, .f32⟩
  | 52 => ⟨S200000x128, .f32⟩
  | 53 => ⟨S200000x128, .f32⟩
  | 54 => ⟨S_, .f32⟩
  | 55 => ⟨S_, .f32⟩
  | 56 => ⟨S200000x128, .f32⟩
  | 57 => ⟨S200000x128, .i1⟩
  | 58 => ⟨S_, .f32⟩
  | 59 => ⟨S200000x128, .f32⟩
  | 60 => ⟨S200000x128, .f32⟩
  | 61 => ⟨S200000x128, .f32⟩
  | 62 => ⟨S128x1, .f32⟩
  | 63 => ⟨S200000x1, .f32⟩
  | 64 => ⟨S1x1, .f32⟩
  | 65 => ⟨S200000x1, .f32⟩
  | 66 => ⟨S200000x1, .f32⟩
  | 67 => ⟨S200000, .f32⟩
  | 68 => ⟨S200000, .f32⟩
  | 69 => ⟨S200000, .f32⟩
  | 70 => ⟨S_, .f32⟩
  | 71 => ⟨S200000, .f32⟩
  | 72 => ⟨S200000, .f32⟩
  | 73 => ⟨S_, .f32⟩
  | 74 => ⟨S200000, .f32⟩
  | 75 => ⟨S200000, .f32⟩
  | 76 => ⟨S_, .f32⟩
  | 77 => ⟨S9000, .f32⟩
  | 78 => ⟨S200000x1, .i32⟩
  | 79 => ⟨S9000, .f32⟩
  | 80 => ⟨S_, .f32⟩
  | 81 => ⟨S9000, .f32⟩
  | 82 => ⟨S9000, .i1⟩
  | 83 => ⟨S_, .f32⟩
  | 84 => ⟨S9000, .f32⟩
  | 85 => ⟨S9000, .f32⟩
  | 86 => ⟨S_, .f32⟩
  | 87 => ⟨S_, .f32⟩
  | 88 => ⟨S9000, .f32⟩
  | 89 => ⟨S9000, .f32⟩
  | 90 => ⟨S_, .i32⟩
  | 91 => ⟨S200000, .i32⟩
  | 92 => ⟨S200000, .i1⟩
  | 93 => ⟨S_, .i32⟩
  | 94 => ⟨S200000, .i32⟩
  | 95 => ⟨S200000, .i32⟩
  | 96 => ⟨S200000, .i32⟩
  | 97 => ⟨S200000x1, .i32⟩
  | 98 => ⟨S200000, .f32⟩
  | 99 => ⟨S200000, .f32⟩
  | 100 => ⟨S_, .i32⟩
  | 101 => ⟨S200000, .i32⟩
  | 102 => ⟨S200000, .i1⟩
  | 103 => ⟨S_, .i32⟩
  | 104 => ⟨S200000, .i32⟩
  | 105 => ⟨S200000, .i32⟩
  | 106 => ⟨S200000, .i32⟩
  | 107 => ⟨S200000x1, .i32⟩
  | 108 => ⟨S200000, .f32⟩
  | 109 => ⟨S200000, .f32⟩
  | 110 => ⟨S_, .f32⟩
  | 111 => ⟨S9088x9088, .f32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S_, .i32⟩
  | 120 => ⟨S200000, .i32⟩
  | 121 => ⟨S200000, .i1⟩
  | 122 => ⟨S_, .i32⟩
  | 123 => ⟨S200000, .i32⟩
  | 124 => ⟨S200000, .i32⟩
  | 125 => ⟨S200000, .i32⟩
  | 126 => ⟨S200000x1, .i32⟩
  | 127 => ⟨S200000x1, .i32⟩
  | _ => ⟨S3000x512, .f32⟩

abbrev hbmTy0_1 (i : Nat) : BufTy := match i % 128 with
  | 0 => ⟨S200000x2, .i32⟩
  | 1 => ⟨S9088x9088, .f32⟩
  | 2 => ⟨S_, .i32⟩
  | 3 => ⟨S_, .f32⟩
  | 4 => ⟨S9088x512, .f32⟩
  | 5 => ⟨S512x512, .f32⟩
  | 6 => ⟨S512x512, .bf16⟩
  | 7 => ⟨S512x512, .f32⟩
  | 8 => ⟨S512x512, .f32⟩
  | 9 => ⟨S512x512, .bf16⟩
  | 10 => ⟨S512x512, .f32⟩
  | 11 => ⟨S512x512, .f32⟩
  | 12 => ⟨S512x512, .bf16⟩
  | 13 => ⟨S9088x512, .bf16⟩
  | 14 => ⟨S9088x512, .f32⟩
  | 15 => ⟨S512x512, .f32⟩
  | 16 => ⟨S512x512, .bf16⟩
  | 17 => ⟨S512x512, .f32⟩
  | 18 => ⟨S512x512, .f32⟩
  | 19 => ⟨S512x512, .bf16⟩
  | 20 => ⟨S512x512, .f32⟩
  | 21 => ⟨S512x512, .f32⟩
  | 22 => ⟨S512x512, .bf16⟩
  | 23 => ⟨S9088x512, .bf16⟩
  | 24 => ⟨S9088x512, .f32⟩
  | 25 => ⟨S9000x512, .f32⟩
  | _ => ⟨S3000x512, .f32⟩

abbrev hbmTy (i : Nat) : BufTy := match i / 128 with
  | 0 => hbmTy0_0 i
  | 1 => hbmTy0_1 i
  | _ => ⟨S3000x512, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S512x512, .bf16⟩
  | .local _ .vmem, ⟨3, _⟩ => ⟨S128x512, .bf16⟩
  | .local _ .vmem, ⟨4, _⟩ => ⟨S128x512, .bf16⟩
  | .local _ .vmem, ⟨5, _⟩ => ⟨S128x9088, .f32⟩
  | .local _ .vmem, ⟨6, _⟩ => ⟨S128x9088, .f32⟩
  | .local _ .vmem, ⟨7, _⟩ => ⟨S128x512, .f32⟩
  | .local _ .vmem, ⟨8, _⟩ => ⟨S128x512, .f32⟩
  | .local _ .vmem, ⟨9, _⟩ => ⟨S9088x512, .bf16⟩
  | .local _ .vmem, ⟨10, _⟩ => ⟨S512x512, .bf16⟩
  | .local _ .vmem, ⟨11, _⟩ => ⟨S512x512, .bf16⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S512x512, .bf16⟩
  | .local _ .vmem, ⟨17, _⟩ => ⟨S128x512, .bf16⟩
  | .local _ .vmem, ⟨18, _⟩ => ⟨S128x512, .bf16⟩
  | .local _ .vmem, ⟨19, _⟩ => ⟨S128x9088, .f32⟩
  | .local _ .vmem, ⟨20, _⟩ => ⟨S128x9088, .f32⟩
  | .local _ .vmem, ⟨21, _⟩ => ⟨S128x512, .f32⟩
  | .local _ .vmem, ⟨22, _⟩ => ⟨S128x512, .f32⟩
  | .local _ .vmem, ⟨23, _⟩ => ⟨S9088x512, .bf16⟩
  | .local _ .vmem, ⟨24, _⟩ => ⟨S512x512, .bf16⟩
  | .local _ .vmem, ⟨25, _⟩ => ⟨S512x512, .bf16⟩
  | .local _ .vmem, ⟨26, _⟩ => ⟨S128x512, .f32⟩
  | .local _ .vmem, ⟨27, _⟩ => ⟨S128x512, .f32⟩
  | _, _ => ⟨S3000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_call0_v2 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_1 : Ref sig .tc := ⟨.hbm, 39, rfl⟩
abbrev main_v19 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_4 : Ref sig .tc := ⟨.hbm, 70, rfl⟩
abbrev main_v41 : Ref sig .tc := ⟨.hbm, 71, rfl⟩
abbrev main_v42 : Ref sig .tc := ⟨.hbm, 72, rfl⟩
abbrev main_cst_5 : Ref sig .tc := ⟨.hbm, 73, rfl⟩
abbrev main_v43 : Ref sig .tc := ⟨.hbm, 74, rfl⟩
abbrev main_v44 : Ref sig .tc := ⟨.hbm, 75, rfl⟩
abbrev main_cst_6 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_7 : Ref sig .tc := ⟨.hbm, 80, rfl⟩
abbrev main_v48 : Ref sig .tc := ⟨.hbm, 81, rfl⟩
abbrev main_v49 : Ref sig .tc := ⟨.hbm, 82, rfl⟩
abbrev main_cst_8 : Ref sig .tc := ⟨.hbm, 83, rfl⟩
abbrev main_v50 : Ref sig .tc := ⟨.hbm, 84, rfl⟩
abbrev main_v51 : Ref sig .tc := ⟨.hbm, 85, rfl⟩
abbrev main_cst_9 : Ref sig .tc := ⟨.hbm, 86, rfl⟩
abbrev main_call2_v0 : Ref sig .tc := ⟨.hbm, 87, rfl⟩
abbrev main_call2_v1 : Ref sig .tc := ⟨.hbm, 88, rfl⟩
abbrev main_v52 : Ref sig .tc := ⟨.hbm, 89, rfl⟩
abbrev main_c_10 : Ref sig .tc := ⟨.hbm, 90, rfl⟩
abbrev main_v53 : Ref sig .tc := ⟨.hbm, 91, rfl⟩
abbrev main_v54 : Ref sig .tc := ⟨.hbm, 92, rfl⟩
abbrev main_c_11 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_12 : Ref sig .tc := ⟨.hbm, 100, rfl⟩
abbrev main_v61 : Ref sig .tc := ⟨.hbm, 101, rfl⟩
abbrev main_v62 : Ref sig .tc := ⟨.hbm, 102, rfl⟩
abbrev main_c_13 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_14 : Ref sig .tc := ⟨.hbm, 110, rfl⟩
abbrev main_v69 : Ref sig .tc := ⟨.hbm, 111, rfl⟩
abbrev main_c_15 : Ref sig .tc := ⟨.hbm, 112, rfl⟩
abbrev main_v70 : Ref sig .tc := ⟨.hbm, 113, rfl⟩
abbrev main_v71 : Ref sig .tc := ⟨.hbm, 114, rfl⟩
abbrev main_c_16 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_c_17 : Ref sig .tc := ⟨.hbm, 119, rfl⟩
abbrev main_v75 : Ref sig .tc := ⟨.hbm, 120, rfl⟩
abbrev main_v76 : Ref sig .tc := ⟨.hbm, 121, rfl⟩
abbrev main_c_18 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_19 : Ref sig .tc := ⟨.hbm, 130, rfl⟩
abbrev main_call3_v0 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![71], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![71], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x9088 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S9088x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![71], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![71], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x9088 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S9088x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x512 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S128x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  concatenates_S3000x512_S3000x512_S3000x512_S9000x512_d0 : Shape.Concatenates [S3000x512, S3000x512, S3000x512] S9000x512 0
  slices_S2x200000_S1x200000_0_0 : S2x200000.Slices ![0, 0] S1x200000
  shapeCasts_S1x200000_S200000 : S1x200000.ShapeCasts S200000
  slices_S2x200000_S1x200000_1_0 : S2x200000.Slices ![1, 0] S1x200000
  transposes_S128x512_S512x128_1_0 : S128x512.Transposes [1, 0] S512x128
  reducesTo_S9000x128_S9000_d1 : S9000x128.ReducesTo [1] S9000
  h_S_ : 0 < S_.numel
  bcast_S9000_S9000x1_0 : S9000.BroadcastsInDim S9000x1 (![0] : Fin 1 → Fin S9000x1.rank)
  bcast_S_S9000x1 : S_.BroadcastsInDim S9000x1 (![] : Fin 0 → Fin S9000x1.rank)
  bcast_S9000x1_S9000x128_0_1 : S9000x1.BroadcastsInDim S9000x128 (![0, 1] : Fin 2 → Fin S9000x128.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  transposes_S128x256_S256x128_1_0 : S128x256.Transposes [1, 0] S256x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  transposes_S1x128_S128x1_1_0 : S1x128.Transposes [1, 0] S128x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  bcast_S_S9000 : S_.BroadcastsInDim S9000 (![] : Fin 0 → Fin S9000.rank)
  bcast_S_S9088x9088 : S_.BroadcastsInDim S9088x9088 (![] : Fin 0 → Fin S9088x9088.rank)
  concatenates_S200000x1_S200000x1_S200000x2_d1 : Shape.Concatenates [S200000x1, S200000x1] S200000x2 1
  pads_S9000x512_S9088x512_0880_000 : S9000x512.Pads (![0, 0] : Fin 2 → Nat) ![88, 0] ![0, 0] S9088x512
  transposes_S512x512_S512x512_1_0 : S512x512.Transposes [1, 0] S512x512
  bitsLt_bf16_f32 : FTy.bits .bf16 < FTy.bits .f32
  slices_S512x1024_S512x512_0_0 : S512x1024.Slices ![0, 0] S512x512
  slices_S512x1024_S512x512_0_512 : S512x1024.Slices ![0, 512] S512x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S128x512_S128x512_0_0 : (Rect.unit (s := S128x512) ![0, 0] S128x512.size inb_S128x512_S128x512_0_0).PackedRows (EltTy.packing .bf16)
  inb_S128x9088_S128x9088_0_0 : ∀ a, (![0, 0] : Fin 2 → Nat) a + S128x9088.size a ≤ S128x9088.size a
  h_S128x9088 : 0 < S128x9088.numel
  shapeCasts_S128x9088_S128x9088 : S128x9088.ShapeCasts S128x9088
  inb_S9088x512_S9088x512_0_0 : ∀ a, (![0, 0] : Fin 2 → Nat) a + S9088x512.size a ≤ S9088x512.size a
  h_S9088x512 : 0 < S9088x512.numel
  shapeCasts_S9088x512_S9088x512 : S9088x512.ShapeCasts S9088x512
  slices_S9088x512_S9000x512_0_0 : S9088x512.Slices ![0, 0] S9000x512
  dot_S9000x512_S512x128_S9000x128_1_0_0_1_n_n_wf : DotDims.WF S9000x512 S512x128 S9000x128 [1] [0] [0] [1] [] []
  gather_S9000x128_S200000x1_S200000x128_1_0_n_n_0_1_1128_wf : GatherDims.WF S9000x128 S200000x1 S200000x128 [1] [0] [] [0] [] 1 ![1, 128]
  dot_S200000x256_S256x128_S200000x128_1_0_0_1_n_n_wf : DotDims.WF S200000x256 S256x128 S200000x128 [1] [0] [0] [1] [] []
  dot_S200000x128_S128x1_S200000x1_1_0_0_1_n_n_wf : DotDims.WF S200000x128 S128x1 S200000x1 [1] [0] [0] [1] [] []
  scatter_S9000_S200000x1_S200000_n_0_0_1_wf : ScatterDims.WF S9000 S200000x1 S200000 [] [0] [0] 1
  gather_S9000_S200000x1_S200000_n_0_n_n_0_1_1_wf : GatherDims.WF S9000 S200000x1 S200000 [] [0] [] [0] [] 1 ![1]
  scatter_S9088x9088_S200000x2_S200000_n_01_01_1_wf : ScatterDims.WF S9088x9088 S200000x2 S200000 [] [0, 1] [0, 1] 1
  dot_S128x512_S512x512_S128x512_1_0_0_1_n_n_wf : DotDims.WF S128x512 S512x512 S128x512 [1] [0] [0] [1] [] []
  dot_S128x9088_S9088x512_S128x512_1_0_0_1_n_n_wf : DotDims.WF S128x9088 S9088x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S9088x512.size a
  hwx0_0 : ∀ i : grid0.Coords, EltTy.bits .f32 = 32 ∨ (Rect.block (s := S9088x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S9088x512.size a
  hwx0_2 : ∀ i : grid0.Coords, EltTy.bits .bf16 = 32 ∨ (Rect.block (s := S9088x512) S128x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x9088.size a ≤ S9088x9088.size a
  hwx1_0 : ∀ i : grid1.Coords, EltTy.bits .f32 = 32 ∨ (Rect.block (s := S9088x9088) S128x9088.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S9088x512.size a
  hwx1_1 : ∀ i : grid1.Coords, EltTy.bits .f32 = 32 ∨ (Rect.block (s := S9088x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S9088x512.size a ≤ S9088x512.size a
  hwx1_2 : ∀ i : grid1.Coords, EltTy.bits .bf16 = 32 ∨ (Rect.block (s := S9088x512) S9088x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x512.size a ≤ S9088x512.size a
  hwx1_5 : ∀ i : grid1.Coords, EltTy.bits .f32 = 32 ∨ (Rect.block (s := S9088x512) S128x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x512.size a ≤ S9088x512.size a
  hwx2_0 : ∀ i : grid2.Coords, EltTy.bits .f32 = 32 ∨ (Rect.block (s := S9088x512) S128x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x512.size a ≤ S9088x512.size a
  hwx2_2 : ∀ i : grid2.Coords, EltTy.bits .bf16 = 32 ∨ (Rect.block (s := S9088x512) S128x512.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x9088.size a ≤ S9088x9088.size a
  hwx3_0 : ∀ i : grid3.Coords, EltTy.bits .f32 = 32 ∨ (Rect.block (s := S9088x9088) S128x9088.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x512.size a ≤ S9088x512.size a
  hwx3_1 : ∀ i : grid3.Coords, EltTy.bits .f32 = 32 ∨ (Rect.block (s := S9088x512) S128x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S9088x512.size a ≤ S9088x512.size a
  hwx3_2 : ∀ i : grid3.Coords, EltTy.bits .bf16 = 32 ∨ (Rect.block (s := S9088x512) S9088x512.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .bf16 = 32 ∨ (Rect.block (s := S512x512) S512x512.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S512x512.size a
  hwx3_4 : ∀ i : grid3.Coords, EltTy.bits .bf16 = 32 ∨ (Rect.block (s := S512x512) S512x512.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S128x512.size a ≤ S9088x512.size a
  hwx3_5 : ∀ i : grid3.Coords, EltTy.bits .f32 = 32 ∨ (Rect.block (s := S9088x512) S128x512.size (cc3_transform_5 i) (hinb3_5 i)).WholeWords (EltTy.packing .f32)

variable [Facts₀]

def dot_S9000x512_S512x128_S9000x128_1_0_0_1_n_n : DotDims S9000x512 S512x128 S9000x128 where
  lhsContracting := [1]
  rhsContracting := [0]
  lhsNonContracting := [0]
  rhsNonContracting := [1]
  lhsBatch := []
  rhsBatch := []
  wf := dot_S9000x512_S512x128_S9000x128_1_0_0_1_n_n_wf
def gather_S9000x128_S200000x1_S200000x128_1_0_n_n_0_1_1128 : GatherDims S9000x128 S200000x1 S200000x128 where
  offsetDims := [1]
  collapsedSliceDims := [0]
  operandBatchingDims := []
  startIndicesBatchingDims := []
  startIndexMap := [0]
  indexVectorDim := 1
  sliceSizes := ![1, 128]
  wf := gather_S9000x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf
def scatter_S9000_S200000x1_S200000_n_0_0_1 : ScatterDims S9000 S200000x1 S200000 where
  updateWindowDims := []
  insertedWindowDims := [0]
  scatterDimsToOperandDims := [0]
  indexVectorDim := 1
  wf := scatter_S9000_S200000x1_S200000_n_0_0_1_wf
def gather_S9000_S200000x1_S200000_n_0_n_n_0_1_1 : GatherDims S9000 S200000x1 S200000 where
  offsetDims := []
  collapsedSliceDims := [0]
  operandBatchingDims := []
  startIndicesBatchingDims := []
  startIndexMap := [0]
  indexVectorDim := 1
  sliceSizes := ![1]
  wf := gather_S9000_S200000x1_S200000_n_0_n_n_0_1_1_wf
def scatter_S9088x9088_S200000x2_S200000_n_01_01_1 : ScatterDims S9088x9088 S200000x2 S200000 where
  updateWindowDims := []
  insertedWindowDims := [0, 1]
  scatterDimsToOperandDims := [0, 1]
  indexVectorDim := 1
  wf := scatter_S9088x9088_S200000x2_S200000_n_01_01_1_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x9088_S9088x512_S128x512_1_0_0_1_n_n : DotDims S128x9088 S9088x512 S128x512 where
  lhsContracting := [1]
  rhsContracting := [0]
  lhsNonContracting := [0]
  rhsNonContracting := [1]
  lhsBatch := []
  rhsBatch := []
  wf := dot_S128x9088_S9088x512_S128x512_1_0_0_1_n_n_wf

abbrev win0_0 : Pipeline.Window sig grid0 :=
  Pipeline.Window.ofSpec (Memref.whole main_v84) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v86) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v93) S128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v83) S128x9088.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v93) S9088x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v89) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v92) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v94) S128x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v94) S128x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v96) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v103) S128x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S128x9088.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S128x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v103) S9088x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v99) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v102) S512x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v104) S128x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S3000x512 : Shape := ⟨2, ![3000, 512]⟩
abbrev S2x200000 : Shape := ⟨2, ![2, 200000]⟩
abbrev S128x512 : Shape := ⟨2, ![128, 512]⟩
abbrev S128x256 : Shape := ⟨2, ![128, 256]⟩
abbrev S128 : Shape := ⟨1, ![128]⟩
abbrev S1x128 : Shape := ⟨2, ![1, 128]⟩
abbrev S1 : Shape := ⟨1, ![1]⟩
abbrev S512x512 : Shape := ⟨2, ![512, 512]⟩
abbrev S512x1024 : Shape := ⟨2, ![512, 1024]⟩
abbrev S9000x512 : Shape := ⟨2, ![9000, 512]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S200000x512 : Shape := ⟨2, ![200000, 512]⟩
abbrev S512x128 : Shape := ⟨2, ![512, 128]⟩
abbrev S200000x128 : Shape := ⟨2, ![200000, 128]⟩
abbrev S200000x256 : Shape := ⟨2, ![200000, 256]⟩
abbrev S256x128 : Shape := ⟨2, ![256, 128]⟩
abbrev S128x1 : Shape := ⟨2, ![128, 1]⟩
abbrev S1x1 : Shape := ⟨2, ![1, 1]⟩
abbrev S9000x9000 : Shape := ⟨2, ![9000, 9000]⟩
abbrev S200000x2 : Shape := ⟨2, ![200000, 2]⟩
abbrev S9000 : Shape := ⟨1, ![9000]⟩
abbrev S9000x1 : Shape := ⟨2, ![9000, 1]⟩
abbrev S1x9000 : Shape := ⟨2, ![1, 9000]⟩
abbrev S9000x1024 : Shape := ⟨2, ![9000, 1024]⟩
abbrev S1024x512 : Shape := ⟨2, ![1024, 512]⟩

abbrev nBuf : Space → Nat
  | .hbm => 158
  | .vmem => 0
  | .smem => 0
  | _ => 0

abbrev hbmTy0_0 (i : Nat) : BufTy := match i % 128 with
  | 0 => ⟨S3000x512, .f32⟩
  | 1 => ⟨S3000x512, .f32⟩
  | 2 => ⟨S3000x512, .f32⟩
  | 3 => ⟨S2x200000, .i32⟩
  | 4 => ⟨S128x512, .f32⟩
  | 5 => ⟨S128x256, .f32⟩
  | 6 => ⟨S128, .f32⟩
  | 7 => ⟨S1x128, .f32⟩
  | 8 => ⟨S1, .f32⟩
  | 9 => ⟨S512x512, .f32⟩
  | 10 => ⟨S512x1024, .f32⟩
  | 11 => ⟨S512x512, .f32⟩
  | 12 => ⟨S512x1024, .f32⟩
  | 13 => ⟨S9000x512, .f32⟩
  | 14 => ⟨S1x200000, .i32⟩
  | 15 => ⟨S200000, .i32⟩
  | 16 => ⟨S1x200000, .i32⟩
  | 17 => ⟨S200000, .i32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S200000x512, .f32⟩
  | 27 => ⟨S512x128, .f32⟩
  | 28 => ⟨S200000x128, .f32⟩
  | 29 => ⟨S200000x128, .f32⟩
  | 30 => ⟨S_, .f32⟩
  | 31 => ⟨S200000, .f32⟩
  | 32 => ⟨S200000x1, .f32⟩
  | 33 => ⟨S200000x1, .f32⟩
  | 34 => ⟨S_, .f32⟩
  | 35 => ⟨S200000x1, .f32⟩
  | 36 => ⟨S200000x1, .f32⟩
  | 37 => ⟨S200000x128, .f32⟩
  | 38 => ⟨S200000x128, .f32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S200000x512, .f32⟩
  | 48 => ⟨S512x128, .f32⟩
  | 49 => ⟨S200000x128, .f32⟩
  | 50 => ⟨S200000x128, .f32⟩
  | 51 => ⟨S_, .f32⟩
  | 52 => ⟨S200000, .f32⟩
  | 53 => ⟨S200000x1, .f32⟩
  | 54 => ⟨S200000x1, .f32⟩
  | 55 => ⟨S_, .f32⟩
  | 56 => ⟨S200000x1, .f32⟩
  | 57 => ⟨S200000x1, .f32⟩
  | 58 => ⟨S200000x128, .f32⟩
  | 59 => ⟨S200000x128, .f32⟩
  | 60 => ⟨S200000x256, .f32⟩
  | 61 => ⟨S256x128, .f32⟩
  | 62 => ⟨S200000x128, .f32⟩
  | 63 => ⟨S1x128, .f32⟩
  | 64 => ⟨S200000x128, .f32⟩
  | 65 => ⟨S200000x128, .f32⟩
  | 66 => ⟨S_, .f32⟩
  | 67 => ⟨S_, .f32⟩
  | 68 => ⟨S200000x128, .f32⟩
  | 69 => ⟨S200000x128, .i1⟩
  | 70 => ⟨S_, .f32⟩
  | 71 => ⟨S200000x128, .f32⟩
  | 72 => ⟨S200000x128, .f32⟩
  | 73 => ⟨S200000x128, .f32⟩
  | 74 => ⟨S128x1, .f32⟩
  | 75 => ⟨S200000x1, .f32⟩
  | 76 => ⟨S1x1, .f32⟩
  | 77 => ⟨S200000x1, .f32⟩
  | 78 => ⟨S200000x1, .f32⟩
  | 79 => ⟨S200000, .f32⟩
  | 80 => ⟨S200000, .f32⟩
  | 81 => ⟨S200000, .f32⟩
  | 82 => ⟨S_, .f32⟩
  | 83 => ⟨S200000, .f32⟩
  | 84 => ⟨S200000, .f32⟩
  | 85 => ⟨S_, .f32⟩
  | 86 => ⟨S200000, .f32⟩
  | 87 => ⟨S200000, .f32⟩
  | 88 => ⟨S_, .f32⟩
  | 89 => ⟨S9000x9000, .f32⟩
  | 90 => ⟨S_, .i32⟩
  | 91 => ⟨S200000, .i32⟩
  | 92 => ⟨S200000, .i1⟩
  | 93 => ⟨S_, .i32⟩
  | 94 => ⟨S200000, .i32⟩
  | 95 => ⟨S200000, .i32⟩
  | 96 => ⟨S200000, .i32⟩
  | 97 => ⟨S_, .i32⟩
  | 98 => ⟨S200000, .i32⟩
  | 99 => ⟨S200000, .i1⟩
  | 100 => ⟨S_, .i32⟩
  | 101 => ⟨S200000, .i32⟩
  | 102 => ⟨S200000, .i32⟩
  | 103 => ⟨S200000, .i32⟩
  | 104 => ⟨S200000x1, .i32⟩
  | 105 => ⟨S200000x1, .i32⟩
  | 106 => ⟨S200000x2, .i32⟩
  | 107 => ⟨S9000x9000, .f32⟩
  | 108 => ⟨S_, .f32⟩
  | 109 => ⟨S9000, .f32⟩
  | 110 => ⟨S_, .f32⟩
  | 111 => ⟨S9000, .f32⟩
  | 112 => ⟨S9000, .i1⟩
  | 113 => ⟨S_, .f32⟩
  | 114 => ⟨S9000, .f32⟩
  | 115 => ⟨S9000, .f32⟩
  | 116 => ⟨S_, .f32⟩
  | 117 => ⟨S_, .f32⟩
  | 118 => ⟨S9000, .f32⟩
  | 119 => ⟨S9000, .f32⟩
  | 120 => ⟨S9000x1, .f32⟩
  | 121 => ⟨S9000x9000, .f32⟩
  | 122 => ⟨S9000x9000, .f32⟩
  | 123 => ⟨S1x9000, .f32⟩
  | 124 => ⟨S9000x9000, .f32⟩
  | 125 => ⟨S9000x9000, .f32⟩
  | 126 => ⟨S512x512, .f32⟩
  | 127 => ⟨S9000x512, .f32⟩
  | _ => ⟨S3000x512, .f32⟩

abbrev hbmTy0_1 (i : Nat) : BufTy := match i % 128 with
  | 0 => ⟨S9000x512, .f32⟩
  | 1 => ⟨S9000x512, .f32⟩
  | 2 => ⟨S9000x512, .f32⟩
  | 3 => ⟨S9000x1024, .f32⟩
  | 4 => ⟨S1024x512, .f32⟩
  | 5 => ⟨S9000x512, .f32⟩
  | 6 => ⟨S_, .f32⟩
  | 7 => ⟨S_, .f32⟩
  | 8 => ⟨S9000x512, .f32⟩
  | 9 => ⟨S9000x512, .i1⟩
  | 10 => ⟨S_, .f32⟩
  | 11 => ⟨S9000x512, .f32⟩
  | 12 => ⟨S9000x512, .f32⟩
  | 13 => ⟨S9000x512, .f32⟩
  | 14 => ⟨S512x512, .f32⟩
  | 15 => ⟨S9000x512, .f32⟩
  | 16 => ⟨S9000x512, .f32⟩
  | 17 => ⟨S9000x512, .f32⟩
  | 18 => ⟨S9000x512, .f32⟩
  | 19 => ⟨S9000x1024, .f32⟩
  | 20 => ⟨S1024x512, .f32⟩
  | 21 => ⟨S9000x512, .f32⟩
  | 22 => ⟨S_, .f32⟩
  | 23 => ⟨S_, .f32⟩
  | 24 => ⟨S9000x512, .f32⟩
  | 25 => ⟨S9000x512, .i1⟩
  | 26 => ⟨S_, .f32⟩
  | 27 => ⟨S9000x512, .f32⟩
  | 28 => ⟨S9000x512, .f32⟩
  | 29 => ⟨S9000x512, .f32⟩
  | _ => ⟨S3000x512, .f32⟩

abbrev hbmTy (i : Nat) : BufTy := match i / 128 with
  | 0 => hbmTy0_0 i
  | 1 => hbmTy0_1 i
  | _ => ⟨S3000x512, .f32⟩

abbrev bufTy : (tb : Table) → Fin (tcTables nBuf tb) → BufTy
  | .hbm, ⟨i, _⟩ => hbmTy i
  | _, _ => ⟨S3000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_call0_v2 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_1 : Ref sig .tc := ⟨.hbm, 39, rfl⟩
abbrev main_v19 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_cst_3 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_4 : Ref sig .tc := ⟨.hbm, 66, rfl⟩
abbrev main_call2_cst : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_5 : Ref sig .tc := ⟨.hbm, 82, rfl⟩
abbrev main_v48 : Ref sig .tc := ⟨.hbm, 83, rfl⟩
abbrev main_v49 : Ref sig .tc := ⟨.hbm, 84, rfl⟩
abbrev main_cst_6 : Ref sig .tc := ⟨.hbm, 85, rfl⟩
abbrev main_v50 : Ref sig .tc := ⟨.hbm, 86, rfl⟩
abbrev main_v51 : Ref sig .tc := ⟨.hbm, 87, rfl⟩
abbrev main_cst_7 : Ref sig .tc := ⟨.hbm, 88, rfl⟩
abbrev main_v52 : Ref sig .tc := ⟨.hbm, 89, rfl⟩
abbrev main_c_8 : Ref sig .tc := ⟨.hbm, 90, rfl⟩
abbrev main_v53 : Ref sig .tc := ⟨.hbm, 91, rfl⟩
abbrev main_v54 : Ref sig .tc := ⟨.hbm, 92, rfl⟩
abbrev main_c_9 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_10 : Ref sig .tc := ⟨.hbm, 97, rfl⟩
abbrev main_v58 : Ref sig .tc := ⟨.hbm, 98, rfl⟩
abbrev main_v59 : Ref sig .tc := ⟨.hbm, 99, rfl⟩
abbrev main_c_11 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_12 : Ref sig .tc := ⟨.hbm, 108, rfl⟩
abbrev main_v67 : Ref sig .tc := ⟨.hbm, 109, rfl⟩
abbrev main_cst_13 : Ref sig .tc := ⟨.hbm, 110, rfl⟩
abbrev main_v68 : Ref sig .tc := ⟨.hbm, 111, rfl⟩
abbrev main_v69 : Ref sig .tc := ⟨.hbm, 112, rfl⟩
abbrev main_cst_14 : Ref sig .tc := ⟨.hbm, 113, rfl⟩
abbrev main_v70 : Ref sig .tc := ⟨.hbm, 114, rfl⟩
abbrev main_v71 : Ref sig .tc := ⟨.hbm, 115, rfl⟩
abbrev main_cst_15 : Ref sig .tc := ⟨.hbm, 116, rfl⟩
abbrev main_call3_v0 : Ref sig .tc := ⟨.hbm, 117, rfl⟩
abbrev main_call3_v1 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_16 : Ref sig .tc := ⟨.hbm, 134, rfl⟩
abbrev main_call4_cst : Ref sig .tc := ⟨.hbm, 135, rfl⟩
abbrev main_call4_v0 : Ref sig .tc := ⟨.hbm, 136, rfl⟩
abbrev main_call4_v1 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_17 : Ref sig .tc := ⟨.hbm, 150, rfl⟩
abbrev main_call5_cst : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_v96 : Ref sig .tc := ⟨.hbm, 157, rfl⟩

abbrev nD : Nat := 1
abbrev τ : Topo := Topo.v7x

variable {F : FTy → Type} [FloatOps F]

class Facts₀ : Prop where
  concatenates_S3000x512_S3000x512_S3000x512_S9000x512_d0 : Shape.Concatenates [S3000x512, S3000x512, S3000x512] S9000x512 0
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  transposes_S128x512_S512x128_1_0 : S128x512.Transposes [1, 0] S512x128
  reducesTo_S200000x128_S200000_d1 : S200000x128.ReducesTo [1] S200000
  h_S_ : 0 < S_.numel
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  concatenates_S200000x128_S200000x128_S200000x256_d1 : Shape.Concatenates [S200000x128, S200000x128] S200000x256 1
  transposes_S128x256_S256x128_1_0 : S128x256.Transposes [1, 0] S256x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  transposes_S1x128_S128x1_1_0 : S1x128.Transposes [1, 0] S128x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  bcast_S_S9000x9000 : S_.BroadcastsInDim S9000x9000 (![] : Fin 0 → Fin S9000x9000.rank)
  concatenates_S200000x1_S200000x1_S200000x2_d1 : Shape.Concatenates [S200000x1, S200000x1] S200000x2 1
  reducesTo_S9000x9000_S9000_d1 : S9000x9000.ReducesTo [1] S9000
  bcast_S_S9000 : S_.BroadcastsInDim S9000 (![] : Fin 0 → Fin S9000.rank)
  bcast_S9000_S9000x1_0 : S9000.BroadcastsInDim S9000x1 (![0] : Fin 1 → Fin S9000x1.rank)
  bcast_S9000x1_S9000x9000_0_1 : S9000x1.BroadcastsInDim S9000x9000 (![0, 1] : Fin 2 → Fin S9000x9000.rank)
  bcast_S9000_S1x9000_1 : S9000.BroadcastsInDim S1x9000 (![1] : Fin 1 → Fin S1x9000.rank)
  bcast_S1x9000_S9000x9000_0_1 : S1x9000.BroadcastsInDim S9000x9000 (![0, 1] : Fin 2 → Fin S9000x9000.rank)
  transposes_S512x512_S512x512_1_0 : S512x512.Transposes [1, 0] S512x512
  concatenates_S9000x512_S9000x512_S9000x1024_d1 : Shape.Concatenates [S9000x512, S9000x512] S9000x1024 1
  transposes_S512x1024_S1024x512_1_0 : S512x1024.Transposes [1, 0] S1024x512
  bcast_S_S9000x512 : S_.BroadcastsInDim S9000x512 (![] : Fin 0 → Fin S9000x512.rank)
  gather_S9000x512_S200000x1_S200000x512_1_0_n_n_0_1_1512_wf : GatherDims.WF S9000x512 S200000x1 S200000x512 [1] [0] [] [0] [] 1 ![1, 512]
  dot_S200000x512_S512x128_S200000x128_1_0_0_1_n_n_wf : DotDims.WF S200000x512 S512x128 S200000x128 [1] [0] [0] [1] [] []
  dot_S200000x256_S256x128_S200000x128_1_0_0_1_n_n_wf : DotDims.WF S200000x256 S256x128 S200000x128 [1] [0] [0] [1] [] []
  dot_S200000x128_S128x1_S200000x1_1_0_0_1_n_n_wf : DotDims.WF S200000x128 S128x1 S200000x1 [1] [0] [0] [1] [] []
  scatter_S9000x9000_S200000x2_S200000_n_01_01_1_wf : ScatterDims.WF S9000x9000 S200000x2 S200000 [] [0, 1] [0, 1] 1
  dot_S9000x512_S512x512_S9000x512_1_0_0_1_n_n_wf : DotDims.WF S9000x512 S512x512 S9000x512 [1] [0] [0] [1] [] []
  dot_S9000x9000_S9000x512_S9000x512_1_0_0_1_n_n_wf : DotDims.WF S9000x9000 S9000x512 S9000x512 [1] [0] [0] [1] [] []
  dot_S9000x1024_S1024x512_S9000x512_1_0_0_1_n_n_wf : DotDims.WF S9000x1024 S1024x512 S9000x512 [1] [0] [0] [1] [] []

variable [Facts₀]

def gather_S9000x512_S200000x1_S200000x512_1_0_n_n_0_1_1512 : GatherDims S9000x512 S200000x1 S200000x512 where
  offsetDims := [1]
  collapsedSliceDims := [0]
  operandBatchingDims := []
  startIndicesBatchingDims := []
  startIndexMap := [0]
  indexVectorDim := 1
  sliceSizes := ![1, 512]
  wf := gather_S9000x512_S200000x1_S200000x512_1_0_n_n_0_1_1512_wf
def dot_S200000x512_S512x128_S200000x128_1_0_0_1_n_n : DotDims S200000x512 S512x128 S200000x128 where
  lhsContracting := [1]
  rhsContracting := [0]
  lhsNonContracting := [0]
  rhsNonContracting := [1]
  lhsBatch := []
  rhsBatch := []
  wf := dot_S200000x512_S512x128_S200000x128_1_0_0_1_n_n_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf
def scatter_S9000x9000_S200000x2_S200000_n_01_01_1 : ScatterDims S9000x9000 S200000x2 S200000 where
  updateWindowDims := []
  insertedWindowDims := [0, 1]
  scatterDimsToOperandDims := [0, 1]
  indexVectorDim := 1
  wf := scatter_S9000x9000_S200000x2_S200000_n_01_01_1_wf
def dot_S9000x512_S512x512_S9000x512_1_0_0_1_n_n : DotDims S9000x512 S512x512 S9000x512 where
  lhsContracting := [1]
  rhsContracting := [0]
  lhsNonContracting := [0]
  rhsNonContracting := [1]
  lhsBatch := []
  rhsBatch := []
  wf := dot_S9000x512_S512x512_S9000x512_1_0_0_1_n_n_wf
def dot_S9000x9000_S9000x512_S9000x512_1_0_0_1_n_n : DotDims S9000x9000 S9000x512 S9000x512 where
  lhsContracting := [1]
  rhsContracting := [0]
  lhsNonContracting := [0]
  rhsNonContracting := [1]
  lhsBatch := []
  rhsBatch := []
  wf := dot_S9000x9000_S9000x512_S9000x512_1_0_0_1_n_n_wf
def dot_S9000x1024_S1024x512_S9000x512_1_0_0_1_n_n : DotDims S9000x1024 S1024x512 S9000x512 where
  lhsContracting := [1]
  rhsContracting := [0]
  lhsNonContracting := [0]
  rhsNonContracting := [1]
  lhsBatch := []
  rhsBatch := []
  wf := dot_S9000x1024_S1024x512_S9000x512_1_0_0_1_n_n_wf

class Facts : Prop extends Facts₀ where

variable [Facts]
-- ==== Proof.KReg0.lean ====
import proofs.«174456_j18270790877215_2_alg».proof.Proof.Gen.Kernel.Launch
import proofs.«174456_j18270790877215_2_alg».proof.Proof.Gen.Kernel.Skeleton
import proofs.«174456_j18270790877215_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S128x512 := Rect.unit (s := S128x512) ![0, 0] S128x512.size inb_S128x512_S128x512_0_0
abbrev rW0 : Rect S512x512 := Rect.unit (s := S512x512) ![0, 0] S512x512.size inb_S512x512_S512x512_0_0

def out0_2 (x0 : Vec F S128x512 .f32) (x1 : Vec F S512x512 .bf16) : Vec F S128x512 .bf16 :=
  View.canon [⟨rX0, k0_pay1 (View.ld x0 rX0) (View.ld x1 rW0)⟩]

/-- The body leaves its inputs as they are and `out0_2` of them in the output; `R`, `S` are carried along. -/
theorem sound_kernel0 (c : Dev nD) {i : grid0.Coords}
    {arg1 : Memref sig .tc .vmem S128x512 .f32} {harg1 : arg1.IsWhole} {arg2 : Memref sig .tc .vmem S512x512 .bf16} {harg2 : arg2.IsWhole}
    {arg3 : Memref sig .tc .vmem S128x512 .bf16} {harg3 : arg3.IsWhole} {δ0 δ1 δ2 : Type}
    {b0 : δ0 → Vec F S128x512 .f32} {b1 : δ1 → Vec F S512x512 .bf16} {b2 : δ2 → Vec F S128x512 .bf16} {x0 x1}
    (h0 : ∀ d, b0 d = x0) (h1 : ∀ d, b1 d = x1) {R S : sProp (MT nD τ sig Unit (Elt F) ℕ (UR sig nD τ) ℕ)} :
    iprop(R ∗ S ∗ (∃ d, owns (c : Thread nD τ) arg1 fullShare (b0 d)) ∗ (∃ d, owns (c : Thread nD τ) arg2 fullShare (b1 d))
        ∗ ∃ d, owns (c : Thread nD τ) arg3 fullShare (b2 d))
      ⊢ wp frame (wpE (defs₀ (F := F)) Variants.none c none) Set.univ (cc0__proj_kernel i arg1 harg1 arg2 harg2 arg3 harg3) fun _ =>
        iprop(R ∗ S ∗ owns (c : Thread nD τ) arg1 fullShare x0 ∗ owns (c : Thread nD τ) arg2 fullShare x1
          ∗ owns (c : Thread nD τ) arg3 fullShare (out0_2 x0 x1)) := by
  rw [cc0__proj_kernel_eq_skeleton]; unfold cc0__proj_kernel_skel owns
  simp only [h0, h1]
  iintro ⟨HR, HS, ⟨%_, %f0, %e0, H0⟩, ⟨%_, %f1, %e1, H1⟩, %_, %f2, -, H2⟩
  subst e0 e1
  sl_exec
  sl_step
  iframe HR HS
  isplitl [H0]; · iexists f0; iframe; ipureintro; rfl
  isplitl [H1]; · iexists f1; iframe; ipureintro; rfl
  iexists _; iframe; ipureintro
  exact View.read_writes_eq_canon _ _ _ (View.cover_of_tiled _ S128x512.size rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := by dsimp only [dat0]

theorem before0 (c : Dev nD) (t : Fin cfg0.N) :
    ∀ w, (cfg0.win w).isOut = false → ∀ d, (dat0 V c).before w t d = (dat0 V c).fetched w t d
  | ⟨0, _⟩, _, d | ⟨1, _⟩, _, d => (dat0 V c).before_in_eq_fetched _ rfl (fun _ => rfl) (fun _ _ _ => rfl) (fun _ => rfl) t d
  | ⟨2, _⟩, h, _ => nomatch h

theorem body_obligation0 (c : Dev nD) : BodyObligation (dat0 (F := F) V c) (defs₀ (F := F)) Variants.none () Set.univ := fun t => by
  rw [bigSep_W0, bigSep_W0]
  simp only [after0_2]
  show _ ⊢ wp _ _ _ (bodyAt0 t) _
  exact sound_kernel0 c (before0 V c t 0 rfl) (before0 V c t 1 rfl)

end Cert.Kernel.Hand

end
-- ==== Proof.KReg1.lean ====
import proofs.«174456_j18270790877215_2_alg».proof.Proof.Gen.Kernel.Launch
import proofs.«174456_j18270790877215_2_alg».proof.Proof.Gen.Kernel.Skeleton
import proofs.«174456_j18270790877215_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rG1 : Rect S128x9088 := Rect.unit (s := S128x9088) ![0, 0] S128x9088.size inb_S128x9088_S128x9088_0_0
abbrev rX1 : Rect S128x512 := Rect.unit (s := S128x512) ![0, 0] S128x512.size inb_S128x512_S128x512_0_0
abbrev rP1 : Rect S9088x512 := Rect.unit (s := S9088x512) ![0, 0] S9088x512.size inb_S9088x512_S9088x512_0_0
abbrev rW1 : Rect S512x512 := Rect.unit (s := S512x512) ![0, 0] S512x512.size inb_S512x512_S512x512_0_0

def out1_5 (g : Vec F S128x9088 .f32) (x : Vec F S128x512 .f32) (p : Vec F S9088x512 .bf16) (a b : Vec F S512x512 .bf16) : Vec F S128x512 .f32 :=
  View.canon [⟨rX1, k1_pay1 (View.ld g rG1) (View.ld p rP1) (View.ld x rX1) (View.ld a rW1) (View.ld b rW1)⟩]

set_option maxHeartbeats 1000000 in
theorem sound_kernel1 (c : Dev nD) {i : grid1.Coords}
    {arg1 : Memref sig .tc .vmem S128x9088 .f32} {harg1 : arg1.IsWhole} {arg2 : Memref sig .tc .vmem S128x512 .f32} {harg2 : arg2.IsWhole}
    {arg3 : Memref sig .tc .vmem S9088x512 .bf16} {harg3 : arg3.IsWhole} {arg4 : Memref sig .tc .vmem S512x512 .bf16} {harg4 : arg4.IsWhole}
    {arg5 : Memref sig .tc .vmem S512x512 .bf16} {harg5 : arg5.IsWhole} {arg6 : Memref sig .tc .vmem S128x512 .f32} {harg6 : arg6.IsWhole}
    {δ0 δ1 δ2 δ3 δ4 δ5 : Type} {b0 : δ0 → Vec F S128x9088 .f32} {b1 : δ1 → Vec F S128x512 .f32} {b2 : δ2 → Vec F S9088x512 .bf16}
    {b3 : δ3 → Vec F S512x512 .bf16} {b4 : δ4 → Vec F S512x512 .bf16} {b5 : δ5 → Vec F S128x512 .f32} {g x p a b}
    (h0 : ∀ d, b0 d = g) (h1 : ∀ d, b1 d = x) (h2 : ∀ d, b2 d = p) (h3 : ∀ d, b3 d = a) (h4 : ∀ d, b4 d = b)
    {R S : sProp (MT nD τ sig Unit (Elt F) ℕ (UR sig nD τ) ℕ)} :
    iprop(R ∗ S ∗ (∃ d, owns (c : Thread nD τ) arg1 fullShare (b0 d)) ∗ (∃ d, owns (c : Thread nD τ) arg2 fullShare (b1 d))
        ∗ (∃ d, owns (c : Thread nD τ) arg3 fullShare (b2 d)) ∗ (∃ d, owns (c : Thread nD τ) arg4 fullShare (b3 d))
        ∗ (∃ d, owns (c : Thread nD τ) arg5 fullShare (b4 d)) ∗ ∃ d, owns (c : Thread nD τ) arg6 fullShare (b5 d))
      ⊢ wp frame (wpE (defs₀ (F := F)) Variants.none c none) Set.univ
          (cc1__layer_kernel i arg1 harg1 arg2 harg2 arg3 harg3 arg4 harg4 arg5 harg5 arg6 harg6) fun _ =>
        iprop(R ∗ S ∗ owns (c : Thread nD τ) arg1 fullShare g ∗ owns (c : Thread nD τ) arg2 fullShare x ∗ owns (c : Thread nD τ) arg3 fullShare p
          ∗ owns (c : Thread nD τ) arg4 fullShare a ∗ owns (c : Thread nD τ) arg5 fullShare b
          ∗ owns (c : Thread nD τ) arg6 fullShare (out1_5 g x p a b)) := by
  rw [cc1__layer_kernel_eq_skeleton]; unfold cc1__layer_kernel_skel owns
  simp only [h0, h1, h2, h3, h4]
  iintro ⟨HR, HS, ⟨%_, %f0, %e0, H0⟩, ⟨%_, %f1, %e1, H1⟩, ⟨%_, %f2, %e2, H2⟩, ⟨%_, %f3, %e3, H3⟩, ⟨%_, %f4, %e4, H4⟩, %_, %f5, -, H5⟩
  subst e0 e1 e2 e3 e4
  sl_exec
  sl_step
  iframe HR HS
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  iexists _; iframe; ipureintro
  exact View.read_writes_eq_canon _ _ _ (View.cover_of_tiled _ S128x512.size rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1 (c : Dev nD) (t : Fin cfg1.N) :
    ∀ w, (cfg1.win w).isOut = false → ∀ d, (dat1 V c).before w t d = (dat1 V c).fetched w t d
  | ⟨0, _⟩, _, d | ⟨1, _⟩, _, d | ⟨2, _⟩, _, d | ⟨3, _⟩, _, d | ⟨4, _⟩, _, d =>
    (dat1 V c).before_in_eq_fetched _ rfl (fun _ => rfl) (fun _ _ _ => rfl) (fun _ => rfl) t d
  | ⟨5, _⟩, h, _ => nomatch h

theorem body_obligation1 (c : Dev nD) : BodyObligation (dat1 (F := F) V c) (defs₀ (F := F)) Variants.none () Set.univ := fun t => by
  rw [bigSep_W1, bigSep_W1]
  simp only [after1_5]
  rw [show (dat1 V c).Φ t.succ = (dat1 V c).Φ t.castSucc from rfl,
    show (dat1 V c).owesAt () t.succ = (dat1 V c).owesAt () t.castSucc from rfl]
  show _ ⊢ wp _ _ _ (bodyAt1 t) _
  exact sound_kernel1 c (before1 V c t 0 rfl) (before1 V c t 1 rfl) (before1 V c t 2 rfl) (before1 V c t 3 rfl) (before1 V c t 4 rfl)

end Cert.Kernel.Hand

end
-- ==== Proof.KReg2.lean ====
import proofs.«174456_j18270790877215_2_alg».proof.Proof.Gen.Kernel.Launch
import proofs.«174456_j18270790877215_2_alg».proof.Proof.Gen.Kernel.Skeleton
import proofs.«174456_j18270790877215_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX2 : Rect S128x512 := Rect.unit (s := S128x512) ![0, 0] S128x512.size inb_S128x512_S128x512_0_0
abbrev rW2 : Rect S512x512 := Rect.unit (s := S512x512) ![0, 0] S512x512.size inb_S512x512_S512x512_0_0

def out2_2 (x0 : Vec F S128x512 .f32) (x1 : Vec F S512x512 .bf16) : Vec F S128x512 .bf16 :=
  View.canon [⟨rX2, k2_pay1 (View.ld x0 rX2) (View.ld x1 rW2)⟩]

/-- The body leaves its inputs as they are and `out2_2` of them in the output; `R`, `S` are carried along. -/
theorem sound_kernel2 (c : Dev nD) {i : grid2.Coords}
    {arg1 : Memref sig .tc .vmem S128x512 .f32} {harg1 : arg1.IsWhole} {arg2 : Memref sig .tc .vmem S512x512 .bf16} {harg2 : arg2.IsWhole}
    {arg3 : Memref sig .tc .vmem S128x512 .bf16} {harg3 : arg3.IsWhole} {δ0 δ1 δ2 : Type}
    {b0 : δ0 → Vec F S128x512 .f32} {b1 : δ1 → Vec F S512x512 .bf16} {b2 : δ2 → Vec F S128x512 .bf16} {x0 x1}
    (h0 : ∀ d, b0 d = x0) (h1 : ∀ d, b1 d = x1) {R S : sProp (MT nD τ sig Unit (Elt F) ℕ (UR sig nD τ) ℕ)} :
    iprop(R ∗ S ∗ (∃ d, owns (c : Thread nD τ) arg1 fullShare (b0 d)) ∗ (∃ d, owns (c : Thread nD τ) arg2 fullShare (b1 d))
        ∗ ∃ d, owns (c : Thread nD τ) arg3 fullShare (b2 d))
      ⊢ wp frame (wpE (defs₀ (F := F)) Variants.none c none) Set.univ (cc2__proj_kernel i arg1 harg1 arg2 harg2 arg3 harg3) fun _ =>
        iprop(R ∗ S ∗ owns (c : Thread nD τ) arg1 fullShare x0 ∗ owns (c : Thread nD τ) arg2 fullShare x1
          ∗ owns (c : Thread nD τ) arg3 fullShare (out2_2 x0 x1)) := by
  rw [cc2__proj_kernel_eq_skeleton]; unfold cc2__proj_kernel_skel owns
  simp only [h0, h1]
  iintro ⟨HR, HS, ⟨%_, %f0, %e0, H0⟩, ⟨%_, %f1, %e1, H1⟩, %_, %f2, -, H2⟩
  subst e0 e1
  sl_exec
  sl_step
  iframe HR HS
  isplitl [H0]; · iexists f0; iframe; ipureintro; rfl
  isplitl [H1]; · iexists f1; iframe; ipureintro; rfl
  iexists _; iframe; ipureintro
  exact View.read_writes_eq_canon _ _ _ (View.cover_of_tiled _ S128x512.size rfl)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t = out2_2 (iblk2 V c 0 t) (iblk2 V c 1 t) := by dsimp only [dat2]

theorem before2 (c : Dev nD) (t : Fin cfg2.N) :
    ∀ w, (cfg2.win w).isOut = false → ∀ d, (dat2 V c).before w t d = (dat2 V c).fetched w t d
  | ⟨0, _⟩, _, d | ⟨1, _⟩, _, d => (dat2 V c).before_in_eq_fetched _ rfl (fun _ => rfl) (fun _ _ _ => rfl) (fun _ => rfl) t d
  | ⟨2, _⟩, h, _ => nomatch h

theorem body_obligation2 (c : Dev nD) : BodyObligation (dat2 (F := F) V c) (defs₀ (F := F)) Variants.none () Set.univ := fun t => by
  rw [bigSep_W2, bigSep_W2]
  simp only [after2_2]
  show _ ⊢ wp _ _ _ (bodyAt2 t) _
  exact sound_kernel2 c (before2 V c t 0 rfl) (before2 V c t 1 rfl)

end Cert.Kernel.Hand

end
-- ==== Proof.KReg3.lean ====
import proofs.«174456_j18270790877215_2_alg».proof.Proof.Gen.Kernel.Launch
import proofs.«174456_j18270790877215_2_alg».proof.Proof.Gen.Kernel.Skeleton
import proofs.«174456_j18270790877215_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rG3 : Rect S128x9088 := Rect.unit (s := S128x9088) ![0, 0] S128x9088.size inb_S128x9088_S128x9088_0_0
abbrev rX3 : Rect S128x512 := Rect.unit (s := S128x512) ![0, 0] S128x512.size inb_S128x512_S128x512_0_0
abbrev rP3 : Rect S9088x512 := Rect.unit (s := S9088x512) ![0, 0] S9088x512.size inb_S9088x512_S9088x512_0_0
abbrev rW3 : Rect S512x512 := Rect.unit (s := S512x512) ![0, 0] S512x512.size inb_S512x512_S512x512_0_0

def out3_5 (g : Vec F S128x9088 .f32) (x : Vec F S128x512 .f32) (p : Vec F S9088x512 .bf16) (a b : Vec F S512x512 .bf16) : Vec F S128x512 .f32 :=
  View.canon [⟨rX3, k3_pay1 (View.ld g rG3) (View.ld p rP3) (View.ld x rX3) (View.ld a rW3) (View.ld b rW3)⟩]

set_option maxHeartbeats 1000000 in
theorem sound_kernel3 (c : Dev nD) {i : grid3.Coords}
    {arg1 : Memref sig .tc .vmem S128x9088 .f32} {harg1 : arg1.IsWhole} {arg2 : Memref sig .tc .vmem S128x512 .f32} {harg2 : arg2.IsWhole}
    {arg3 : Memref sig .tc .vmem S9088x512 .bf16} {harg3 : arg3.IsWhole} {arg4 : Memref sig .tc .vmem S512x512 .bf16} {harg4 : arg4.IsWhole}
    {arg5 : Memref sig .tc .vmem S512x512 .bf16} {harg5 : arg5.IsWhole} {arg6 : Memref sig .tc .vmem S128x512 .f32} {harg6 : arg6.IsWhole}
    {δ0 δ1 δ2 δ3 δ4 δ5 : Type} {b0 : δ0 → Vec F S128x9088 .f32} {b1 : δ1 → Vec F S128x512 .f32} {b2 : δ2 → Vec F S9088x512 .bf16}
    {b3 : δ3 → Vec F S512x512 .bf16} {b4 : δ4 → Vec F S512x512 .bf16} {b5 : δ5 → Vec F S128x512 .f32} {g x p a b}
    (h0 : ∀ d, b0 d = g) (h1 : ∀ d, b1 d = x) (h2 : ∀ d, b2 d = p) (h3 : ∀ d, b3 d = a) (h4 : ∀ d, b4 d = b)
    {R S : sProp (MT nD τ sig Unit (Elt F) ℕ (UR sig nD τ) ℕ)} :
    iprop(R ∗ S ∗ (∃ d, owns (c : Thread nD τ) arg1 fullShare (b0 d)) ∗ (∃ d, owns (c : Thread nD τ) arg2 fullShare (b1 d))
        ∗ (∃ d, owns (c : Thread nD τ) arg3 fullShare (b2 d)) ∗ (∃ d, owns (c : Thread nD τ) arg4 fullShare (b3 d))
        ∗ (∃ d, owns (c : Thread nD τ) arg5 fullShare (b4 d)) ∗ ∃ d, owns (c : Thread nD τ) arg6 fullShare (b5 d))
      ⊢ wp frame (wpE (defs₀ (F := F)) Variants.none c none) Set.univ
          (cc3__layer_kernel i arg1 harg1 arg2 harg2 arg3 harg3 arg4 harg4 arg5 harg5 arg6 harg6) fun _ =>
        iprop(R ∗ S ∗ owns (c : Thread nD τ) arg1 fullShare g ∗ owns (c : Thread nD τ) arg2 fullShare x ∗ owns (c : Thread nD τ) arg3 fullShare p
          ∗ owns (c : Thread nD τ) arg4 fullShare a ∗ owns (c : Thread nD τ) arg5 fullShare b
          ∗ owns (c : Thread nD τ) arg6 fullShare (out3_5 g x p a b)) := by
  rw [cc3__layer_kernel_eq_skeleton]; unfold cc3__layer_kernel_skel owns
  simp only [h0, h1, h2, h3, h4]
  iintro ⟨HR, HS, ⟨%_, %f0, %e0, H0⟩, ⟨%_, %f1, %e1, H1⟩, ⟨%_, %f2, %e2, H2⟩, ⟨%_, %f3, %e3, H3⟩, ⟨%_, %f4, %e4, H4⟩, %_, %f5, -, H5⟩
  subst e0 e1 e2 e3 e4
  sl_exec
  sl_step
  iframe HR HS
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  iexists _; iframe; ipureintro
  exact View.read_writes_eq_canon _ _ _ (View.cover_of_tiled _ S128x512.size rfl)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3 (c : Dev nD) (t : Fin cfg3.N) :
    ∀ w, (cfg3.win w).isOut = false → ∀ d, (dat3 V c).before w t d = (dat3 V c).fetched w t d
  | ⟨0, _⟩, _, d | ⟨1, _⟩, _, d | ⟨2, _⟩, _, d | ⟨3, _⟩, _, d | ⟨4, _⟩, _, d =>
    (dat3 V c).before_in_eq_fetched _ rfl (fun _ => rfl) (fun _ _ _ => rfl) (fun _ => rfl) t d
  | ⟨5, _⟩, h, _ => nomatch h

theorem body_obligation3 (c : Dev nD) : BodyObligation (dat3 (F := F) V c) (defs₀ (F := F)) Variants.none () Set.univ := fun t => by
  rw [bigSep_W3, bigSep_W3]
  simp only [after3_5]
  rw [show (dat3 V c).Φ t.succ = (dat3 V c).Φ t.castSucc from rfl,
    show (dat3 V c).owesAt () t.succ = (dat3 V c).owesAt () t.castSucc from rfl]
  show _ ⊢ wp _ _ _ (bodyAt3 t) _
  exact sound_kernel3 c (before3 V c t 0 rfl) (before3 V c t 1 rfl) (before3 V c t 2 rfl) (before3 V c t 3 rfl) (before3 V c t 4 rfl)

end Cert.Kernel.Hand

end
-- ==== Proof.KRun.lean ====
import proofs.«174456_j18270790877215_2_alg».proof.Proof.Gen.Kernel.Regions
import proofs.«174456_j18270790877215_2_alg».proof.Proof.KReg0
import proofs.«174456_j18270790877215_2_alg».proof.Proof.KReg1
import proofs.«174456_j18270790877215_2_alg».proof.Proof.KReg2
import proofs.«174456_j18270790877215_2_alg».proof.Proof.KReg3

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Vr (W : Dev nD → Valuation τ sig (Elt F)) : (c : Dev nD) → (b : Ref sig .tc) → Buf (Elt F) ((c : Thread nD τ).loc b) :=
  fun c b => W c b

abbrev B9 : Dev nD → Valuation τ sig (Elt F) := fun c => V9 m c

def B10 (c : Dev nD) : Valuation τ sig (Elt F) :=
  Pipeline.withArrays spec0 c (B9 m c) fun w => (dat0 (Vr (B9 m)) c).arrAt w cfg0.N
theorem B10_arr (c : Dev nD) (w : Fin cfg0.W) :
    B10 m c (Proc.devRef .tc (Pipeline.arrRef spec0 w)) = (dat0 (Vr (B9 m)) c).arrAt w cfg0.N :=
  Pipeline.withArrays_arr spec0 launch0.win.arr_inj c _ _ w
theorem B10_of_ne (c : Dev nD) (b : Ref sig .tc) (hb : ∀ w, Pipeline.arrRef spec0 w ≠ b) :
    B10 m c (Proc.devRef .tc b) = B9 m c (Proc.devRef .tc b) :=
  Pipeline.withArrays_of_ne spec0 c _ _ b hb

def B11 (c : Dev nD) : Valuation τ sig (Elt F) :=
  Pipeline.withArrays spec1 c (B10 m c) fun w => (dat1 (Vr (B10 m)) c).arrAt w cfg1.N
theorem B11_arr (c : Dev nD) (w : Fin cfg1.W) :
    B11 m c (Proc.devRef .tc (Pipeline.arrRef spec1 w)) = (dat1 (Vr (B10 m)) c).arrAt w cfg1.N :=
  Pipeline.withArrays_arr spec1 launch1.win.arr_inj c _ _ w
theorem B11_of_ne (c : Dev nD) (b : Ref sig .tc) (hb : ∀ w, Pipeline.arrRef spec1 w ≠ b) :
    B11 m c (Proc.devRef .tc b) = B10 m c (Proc.devRef .tc b) :=
  Pipeline.withArrays_of_ne spec1 c _ _ b hb

abbrev B12 : Dev nD → Valuation τ sig (Elt F) := fun c => StableHlo.after hostOps2 (B11 m c)

def B13 (c : Dev nD) : Valuation τ sig (Elt F) :=
  Pipeline.withArrays spec2 c (B12 m c) fun w => (dat2 (Vr (B12 m)) c).arrAt w cfg2.N
theorem B13_arr (c : Dev nD) (w : Fin cfg2.W) :
    B13 m c (Proc.devRef .tc (Pipeline.arrRef spec2 w)) = (dat2 (Vr (B12 m)) c).arrAt w cfg2.N :=
  Pipeline.withArrays_arr spec2 launch2.win.arr_inj c _ _ w
theorem B13_of_ne (c : Dev nD) (b : Ref sig .tc) (hb : ∀ w, Pipeline.arrRef spec2 w ≠ b) :
    B13 m c (Proc.devRef .tc b) = B12 m c (Proc.devRef .tc b) :=
  Pipeline.withArrays_of_ne spec2 c _ _ b hb

def B14 (c : Dev nD) : Valuation τ sig (Elt F) :=
  Pipeline.withArrays spec3 c (B13 m c) fun w => (dat3 (Vr (B13 m)) c).arrAt w cfg3.N
theorem B14_arr (c : Dev nD) (w : Fin cfg3.W) :
    B14 m c (Proc.devRef .tc (Pipeline.arrRef spec3 w)) = (dat3 (Vr (B13 m)) c).arrAt w cfg3.N :=
  Pipeline.withArrays_arr spec3 launch3.win.arr_inj c _ _ w
theorem B14_of_ne (c : Dev nD) (b : Ref sig .tc) (hb : ∀ w, Pipeline.arrRef spec3 w ≠ b) :
    B14 m c (Proc.devRef .tc b) = B13 m c (Proc.devRef .tc b) :=
  Pipeline.withArrays_of_ne spec3 c _ _ b hb

abbrev B15 : Dev nD → Valuation τ sig (Elt F) := fun c => StableHlo.after hostOps4 (B14 m c)

def pdats : (p : Fin 4) → (c : Dev nD) → Dat τ (Elt F) Unit ℕ (UR sig nD τ) ℕ (cfgs p) c
  | ⟨0, _⟩ => dat0 (Vr (B9 m))
  | ⟨1, _⟩ => dat1 (Vr (B10 m))
  | ⟨2, _⟩ => dat2 (Vr (B12 m))
  | ⟨3, _⟩ => dat3 (Vr (B13 m))

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 5 → Dev nD → sProp 𝕄 := fun _ => R

set_option backward.isDefEq.respectTransparency.types false in
/-- One record serves all four launches: they differ only in `p` and in the contents `V` they are entered at. -/
def reg {pd : (p : Fin 4) → (c : Dev nD) → Dat τ (Elt F) Unit ℕ (UR sig nD τ) ℕ (cfgs p) c} {p : Fin 4}
    (ln : Pipeline.LaunchFacts (nD := nD) (τ := τ) cfgs p) (V : Dev nD → Valuation τ sig (Elt F))
    (hb : ∀ c, BodyObligation (pd p c) (defs₀ (F := F)) 𝒱₀ () Set.univ)
    (hA : ∀ c w, (pd p c).A w = Vr V c (Pipeline.arrRef (cfgs p).spec w) := by intros; rfl)
    (hΦ : ∀ c t, (pd p c).Φ t = Pipeline.ΦA (cfgs p).spec c := by intros; rfl) (hq : ∀ c w, (pd p c).q w = fullShare := by intros; rfl)
    (h0 : ∀ c t, (pd p c).owed t = 0 := by intros; rfl) (hr : ∀ c t, (pd p c).recorded t = Set.univ := by intros; rfl) :
    RegionSeg (pcfgs (F := F)) adm pd () defs₀ 𝒱₀ L lv p where
  win := ln.win.to₀
  block_pos := ln.block_pos
  stage_whole := ln.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) fun w => (pd p c).arrAt w (cfgs p).N) ∗ R c)
  X c := iprop(∃ r, prngReg c r)
  Y c := iprop(∃ r, prngReg c r)
  Z c := Pipeline.unscopedRest (cfgs p).spec c (Vr V c)
  hentry c := by
    have hs := Pipeline.arrays_of_unscopedBufs (p := p) (pcfgs (F := F)) adm pd ln.win ln.arr_whole c
      ((pd p c).share_full (hq c)) (Vr V c) (hA c)
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0 c, hr c]
      icases HO with ⟨%W, HO⟩; iexists W; isplitr; · ipureintro; exact fun _ _ => Or.inl trivial
      iexact HO
    isplitl [Hp] <;> iassumption
  hin c := by
    rw [hΦ c]; unfold Pipeline.ΦA
    iintro ⟨Hp, -, Hr⟩
    isplitl [Hr] <;> iassumption
  hout c := by
    rw [Pipeline.ownSems0_none, hΦ c]; unfold Pipeline.ΦA
    iintro ⟨Hr, Hp⟩
    isplitl [Hp]; · iexact Hp
    isplitr; · iempintro
    iexact Hr
  hexit c := by
    have hj := Pipeline.unscopedBufs_of_arrays (p := p) (pcfgs (F := F)) adm ln.win ln.arr_whole c pd ((pd p c).share_full (hq c)) (Vr V c)
      (Vr (fun c => Pipeline.withArrays (cfgs p).spec c (V c) ((pd p c).arrAt · (cfgs p).N)) c) ((pd p c).arrAt · (cfgs p).N)
      (fun w => (Pipeline.withArrays_arr (cfgs p).spec ln.win.arr_inj c (V c) ((pd p c).arrAt · (cfgs p).N) w).symm)
      fun b hb => Pipeline.withArrays_of_ne (cfgs p).spec c (V c) ((pd p c).arrAt · (cfgs p).N) b fun w e =>
        hb (Finset.mem_image.mpr ⟨w, Finset.mem_univ _, e⟩)
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin; rw [h0 c]
    icases HO with ⟨%W, -, HO⟩; iexists W; iexact HO

def hseg (ops : List (HloOp τ sig (Elt F))) (hs : ops.Forall fun op => op.bufs ⊆ StableHlo.tcRefs τ sig)
    (hf : ops.Forall fun op => op.fresh = ∅) (V : Dev nD → Valuation τ sig (Elt F)) :
    HostSeg (Ix := Unit) (Name := ℕ) (U := UR sig nD τ) (Lvl := ℕ) (pcfgs (F := F)) defs₀ 𝒱₀ L lv :=
  HostSeg.ofOps _ _ _ _ _ (Pipeline.ucRefs τ sig) ops (fun op h => Pipeline.sub_ucRefs op (List.forall_iff_forall_mem.mp hs op h))
    (List.forall_iff_forall_mem.mp hf) V R

abbrev mainSegs : List (Seg (pcfgs (F := F)) adm (pdats m) () defs₀ 𝒱₀ L lv) :=
  [.host (seg0 m 𝒱₀ L lv E), .host (seg1 m 𝒱₀ L lv E), .host (seg2 m 𝒱₀ L lv E), .host (seg3 m 𝒱₀ L lv E), .host (seg4 m 𝒱₀ L lv E),
   .host (seg5 m 𝒱₀ L lv E), .host (seg6 m 𝒱₀ L lv E), .host (seg7 m 𝒱₀ L lv E), .host (seg8 m 𝒱₀ L lv E),
   .region (reg launch0 (B9 m) (body_obligation0 _)),
   .region (reg launch1 (B10 m) (body_obligation1 _)),
   .host (hseg hostOps2 hostOps2_sub hostOps2_fresh (B11 m)),
   .region (reg launch2 (B12 m) (body_obligation2 _)),
   .region (reg launch3 (B13 m) (body_obligation3 _)),
   .host (hseg hostOps4 hostOps4_sub hostOps4_fresh (B14 m))]

abbrev u₀ : UR sig nD τ := initOf (Pipeline.cells cfgs cellOf_inj) (Pipeline.launchToks cfgs cellOf_inj)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = B15 m c b) := by
  refine Pipeline.θ_run_regions_kit_dev (pcfgs (F := F)) adm (pdats m) () cellOf_inj emb₁ defs₀ 𝒱₀ L lv m ρ main
    (fun _ => mainSegs m)
    (fun c Q => by
      rewrite [main_chain c, Seg.run_eq_chain,
        show (mainSegs m).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4 ] from rfl]
      exact .rfl)
    (fun c => by simp only [mainSegs, Seg.pipes_host, Seg.pipes_region, Seg.pipes_nil]; decide)
    (O₀ := 0) (hL := fun _ _ => rfl) (G := fun _ => BI.emp)
    (u₀ := u₀)
    (hu₀ := by
      rw [BI.bigSep_emp_const]; iintro Hu; imodintro
      isplitl [Hu]
      · iapply (show (ownU u₀ : sProp 𝕄) ⊢ BI.own (emb₁ u₀) from .rfl); iexact Hu
      iempintro)
    (T₀ := fun c => iprop(StableHlo.held (c : Thread nD τ) (Pipeline.ucRefs τ sig) (V0 m c) ∗ R c))
    (Tₙ := fun c => StableHlo.held (c : Thread nD τ) (Pipeline.ucRefs τ sig) (B15 m c))
    (hch := fun c => ⟨.rfl, .rfl, .rfl, .rfl, .rfl, .rfl, .rfl, .rfl, .rfl, .rfl, .rfl, .rfl, .rfl, .rfl, .rfl, sep_mono .rfl sep_elim_right⟩)
    (hinit := by
      refine Pipeline.initEach L lv fun c => ?_
      erw [Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B15 m c b)
    (hfin := fun c s' => by
      iintro ⟨Hh, HSI⟩
      unfold StableHlo.held
      imodintro
      iapply (pointsTo_read_all (Pipeline.ucRefs τ sig) (fun b => (((c : Thread nD τ)).1, b)) (B15 m c) s')
      isplitl [Hh] <;> iassumption)
    (hQ := fun s h c => h c)

end Cert.Kernel.Hand

end
-- ==== Proof.KArgs.lean ====
import proofs.«174456_j18270790877215_2_alg».proof.Proof.KRun

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (ρ : Dev nD → PrngReg)

/-- Why an argument ends as launched: no stretch writes it and it is no launch's array, so every boundary leaves it alone. -/
theorem arg_kept {s : MemSt nD τ sig (Elt F)} (c : Dev nD) (r : Ref sig .tc)
    (h : ∀ b ∈ Pipeline.ucRefs τ sig, s.mem (((c : Thread nD τ)).1, b) = B15 m c b)
    (hu : ¬ (Proc.devRef .tc r : DevRef τ sig).isScoped := by decide)
    (h0 : r ∉ hostOps0_W := by decide) (h1 : r ∉ hostOps0_1_W := by decide) (h2 : r ∉ hostOps0_2_W := by decide)
    (h3 : r ∉ hostOps0_3_W := by decide) (h4 : r ∉ hostOps0_4_W := by decide) (h5 : r ∉ hostOps0_5_W := by decide)
    (h6 : r ∉ hostOps0_6_W := by decide) (h7 : r ∉ hostOps0_7_W := by decide) (h8 : r ∉ hostOps0_8_W := by decide)
    (k0 : ∀ w, Pipeline.arrRef spec0 w ≠ r := by decide) (k1 : ∀ w, Pipeline.arrRef spec1 w ≠ r := by decide)
    (h11 : r ∉ hostOps2_W := by decide) (k2 : ∀ w, Pipeline.arrRef spec2 w ≠ r := by decide)
    (k3 : ∀ w, Pipeline.arrRef spec3 w ≠ r := by decide) (h14 : r ∉ hostOps4_W := by decide) :
    s.mem ((c.tc : Thread nD τ).loc r) = m ((c.tc : Thread nD τ).loc r) :=
  (h _ (Finset.mem_filter.mpr ⟨StableHlo.devRef_mem_tcRefs r, hu⟩)).trans <|
  (StableHlo.after_of_writes_sub hostOps4 _ hostOps4_writes h14).trans <|
  (B14_of_ne m c r k3).trans <| (B13_of_ne m c r k2).trans <|
  (StableHlo.after_of_writes_sub hostOps2 _ hostOps2_writes h11).trans <|
  (B11_of_ne m c r k1).trans <| (B10_of_ne m c r k0).trans <|
  (V9_of m c r h8).trans <| (V8_of m c r h7).trans <| (V7_of m c r h6).trans <| (V6_of m c r h5).trans <|
  (V5_of m c r h4).trans <| (V4_of m c r h3).trans <| (V3_of m c r h2).trans <| (V2_of m c r h1).trans <| V1_of m c r h0

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨arg_kept m c main_arg0 (h c),
    arg_kept m c main_arg1 (h c),
    arg_kept m c main_arg2 (h c),
    arg_kept m c main_arg3 (h c),
    arg_kept m c main_arg4 (h c),
    arg_kept m c main_arg5 (h c),
    arg_kept m c main_arg6 (h c),
    arg_kept m c main_arg7 (h c),
    arg_kept m c main_arg8 (h c),
    arg_kept m c main_arg9 (h c),
    arg_kept m c main_arg10 (h c),
    arg_kept m c main_arg11 (h c),
    arg_kept m c main_arg12 (h c)⟩) (run_all m ρ)

end Cert.Kernel.Hand

end
-- ==== Proof.KIReg0.lean ====
import proofs.«174456_j18270790877215_2_alg».proof.Proof.Gen.KernelIdeal.Launch
import proofs.«174456_j18270790877215_2_alg».proof.Proof.Gen.KernelIdeal.Skeleton
import proofs.«174456_j18270790877215_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S128x512 := Rect.unit (s := S128x512) ![0, 0] S128x512.size inb_S128x512_S128x512_0_0
abbrev rW0 : Rect S512x512 := Rect.unit (s := S512x512) ![0, 0] S512x512.size inb_S512x512_S512x512_0_0

def out0_2 (x0 : Vec F S128x512 .f32) (x1 : Vec F S512x512 .bf16) : Vec F S128x512 .bf16 :=
  View.canon [⟨rX0, k0_pay1 (View.ld x0 rX0) (View.ld x1 rW0)⟩]

/-- The body leaves its inputs as they are and `out0_2` of them in the output; `R`, `S` are carried along. -/
theorem sound_kernel0 (c : Dev nD) {i : grid0.Coords}
    {arg1 : Memref sig .tc .vmem S128x512 .f32} {harg1 : arg1.IsWhole} {arg2 : Memref sig .tc .vmem S512x512 .bf16} {harg2 : arg2.IsWhole}
    {arg3 : Memref sig .tc .vmem S128x512 .bf16} {harg3 : arg3.IsWhole} {δ0 δ1 δ2 : Type}
    {b0 : δ0 → Vec F S128x512 .f32} {b1 : δ1 → Vec F S512x512 .bf16} {b2 : δ2 → Vec F S128x512 .bf16} {x0 x1}
    (h0 : ∀ d, b0 d = x0) (h1 : ∀ d, b1 d = x1) {R S : sProp (MT nD τ sig Unit (Elt F) ℕ (UR sig nD τ) ℕ)} :
    iprop(R ∗ S ∗ (∃ d, owns (c : Thread nD τ) arg1 fullShare (b0 d)) ∗ (∃ d, owns (c : Thread nD τ) arg2 fullShare (b1 d))
        ∗ ∃ d, owns (c : Thread nD τ) arg3 fullShare (b2 d))
      ⊢ wp frame (wpE (defs₀ (F := F)) Variants.none c none) Set.univ (cc0__proj_kernel i arg1 harg1 arg2 harg2 arg3 harg3) fun _ =>
        iprop(R ∗ S ∗ owns (c : Thread nD τ) arg1 fullShare x0 ∗ owns (c : Thread nD τ) arg2 fullShare x1
          ∗ owns (c : Thread nD τ) arg3 fullShare (out0_2 x0 x1)) := by
  rw [cc0__proj_kernel_eq_skeleton]; unfold cc0__proj_kernel_skel owns
  simp only [h0, h1]
  iintro ⟨HR, HS, ⟨%_, %f0, %e0, H0⟩, ⟨%_, %f1, %e1, H1⟩, %_, %f2, -, H2⟩
  subst e0 e1
  sl_exec
  sl_step
  iframe HR HS
  isplitl [H0]; · iexists f0; iframe; ipureintro; rfl
  isplitl [H1]; · iexists f1; iframe; ipureintro; rfl
  iexists _; iframe; ipureintro
  exact View.read_writes_eq_canon _ _ _ (View.cover_of_tiled _ S128x512.size rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := by dsimp only [dat0]

theorem before0 (c : Dev nD) (t : Fin cfg0.N) :
    ∀ w, (cfg0.win w).isOut = false → ∀ d, (dat0 V c).before w t d = (dat0 V c).fetched w t d
  | ⟨0, _⟩, _, d | ⟨1, _⟩, _, d => (dat0 V c).before_in_eq_fetched _ rfl (fun _ => rfl) (fun _ _ _ => rfl) (fun _ => rfl) t d
  | ⟨2, _⟩, h, _ => nomatch h

theorem body_obligation0 (c : Dev nD) : BodyObligation (dat0 (F := F) V c) (defs₀ (F := F)) Variants.none () Set.univ := fun t => by
  rw [bigSep_W0, bigSep_W0]
  simp only [after0_2]
  show _ ⊢ wp _ _ _ (bodyAt0 t) _
  exact sound_kernel0 c (before0 V c t 0 rfl) (before0 V c t 1 rfl)

end Cert.KernelIdeal.Hand

end
-- ==== Proof.KIReg1.lean ====
import proofs.«174456_j18270790877215_2_alg».proof.Proof.Gen.KernelIdeal.Launch
import proofs.«174456_j18270790877215_2_alg».proof.Proof.Gen.KernelIdeal.Skeleton
import proofs.«174456_j18270790877215_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rG1 : Rect S128x9088 := Rect.unit (s := S128x9088) ![0, 0] S128x9088.size inb_S128x9088_S128x9088_0_0
abbrev rX1 : Rect S128x512 := Rect.unit (s := S128x512) ![0, 0] S128x512.size inb_S128x512_S128x512_0_0
abbrev rP1 : Rect S9088x512 := Rect.unit (s := S9088x512) ![0, 0] S9088x512.size inb_S9088x512_S9088x512_0_0
abbrev rW1 : Rect S512x512 := Rect.unit (s := S512x512) ![0, 0] S512x512.size inb_S512x512_S512x512_0_0

def out1_5 (g : Vec F S128x9088 .f32) (x : Vec F S128x512 .f32) (p : Vec F S9088x512 .bf16) (a b : Vec F S512x512 .bf16) : Vec F S128x512 .f32 :=
  View.canon [⟨rX1, k1_pay1 (View.ld g rG1) (View.ld p rP1) (View.ld x rX1) (View.ld a rW1) (View.ld b rW1)⟩]

set_option maxHeartbeats 1000000 in
theorem sound_kernel1 (c : Dev nD) {i : grid1.Coords}
    {arg1 : Memref sig .tc .vmem S128x9088 .f32} {harg1 : arg1.IsWhole} {arg2 : Memref sig .tc .vmem S128x512 .f32} {harg2 : arg2.IsWhole}
    {arg3 : Memref sig .tc .vmem S9088x512 .bf16} {harg3 : arg3.IsWhole} {arg4 : Memref sig .tc .vmem S512x512 .bf16} {harg4 : arg4.IsWhole}
    {arg5 : Memref sig .tc .vmem S512x512 .bf16} {harg5 : arg5.IsWhole} {arg6 : Memref sig .tc .vmem S128x512 .f32} {harg6 : arg6.IsWhole}
    {δ0 δ1 δ2 δ3 δ4 δ5 : Type} {b0 : δ0 → Vec F S128x9088 .f32} {b1 : δ1 → Vec F S128x512 .f32} {b2 : δ2 → Vec F S9088x512 .bf16}
    {b3 : δ3 → Vec F S512x512 .bf16} {b4 : δ4 → Vec F S512x512 .bf16} {b5 : δ5 → Vec F S128x512 .f32} {g x p a b}
    (h0 : ∀ d, b0 d = g) (h1 : ∀ d, b1 d = x) (h2 : ∀ d, b2 d = p) (h3 : ∀ d, b3 d = a) (h4 : ∀ d, b4 d = b)
    {R S : sProp (MT nD τ sig Unit (Elt F) ℕ (UR sig nD τ) ℕ)} :
    iprop(R ∗ S ∗ (∃ d, owns (c : Thread nD τ) arg1 fullShare (b0 d)) ∗ (∃ d, owns (c : Thread nD τ) arg2 fullShare (b1 d))
        ∗ (∃ d, owns (c : Thread nD τ) arg3 fullShare (b2 d)) ∗ (∃ d, owns (c : Thread nD τ) arg4 fullShare (b3 d))
        ∗ (∃ d, owns (c : Thread nD τ) arg5 fullShare (b4 d)) ∗ ∃ d, owns (c : Thread nD τ) arg6 fullShare (b5 d))
      ⊢ wp frame (wpE (defs₀ (F := F)) Variants.none c none) Set.univ
          (cc1__layer_kernel i arg1 harg1 arg2 harg2 arg3 harg3 arg4 harg4 arg5 harg5 arg6 harg6) fun _ =>
        iprop(R ∗ S ∗ owns (c : Thread nD τ) arg1 fullShare g ∗ owns (c : Thread nD τ) arg2 fullShare x ∗ owns (c : Thread nD τ) arg3 fullShare p
          ∗ owns (c : Thread nD τ) arg4 fullShare a ∗ owns (c : Thread nD τ) arg5 fullShare b
          ∗ owns (c : Thread nD τ) arg6 fullShare (out1_5 g x p a b)) := by
  rw [cc1__layer_kernel_eq_skeleton]; unfold cc1__layer_kernel_skel owns
  simp only [h0, h1, h2, h3, h4]
  iintro ⟨HR, HS, ⟨%_, %f0, %e0, H0⟩, ⟨%_, %f1, %e1, H1⟩, ⟨%_, %f2, %e2, H2⟩, ⟨%_, %f3, %e3, H3⟩, ⟨%_, %f4, %e4, H4⟩, %_, %f5, -, H5⟩
  subst e0 e1 e2 e3 e4
  sl_exec
  sl_step
  iframe HR HS
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  iexists _; iframe; ipureintro
  exact View.read_writes_eq_canon _ _ _ (View.cover_of_tiled _ S128x512.size rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1 (c : Dev nD) (t : Fin cfg1.N) :
    ∀ w, (cfg1.win w).isOut = false → ∀ d, (dat1 V c).before w t d = (dat1 V c).fetched w t d
  | ⟨0, _⟩, _, d | ⟨1, _⟩, _, d | ⟨2, _⟩, _, d | ⟨3, _⟩, _, d | ⟨4, _⟩, _, d =>
    (dat1 V c).before_in_eq_fetched _ rfl (fun _ => rfl) (fun _ _ _ => rfl) (fun _ => rfl) t d
  | ⟨5, _⟩, h, _ => nomatch h

theorem body_obligation1 (c : Dev nD) : BodyObligation (dat1 (F := F) V c) (defs₀ (F := F)) Variants.none () Set.univ := fun t => by
  rw [bigSep_W1, bigSep_W1]
  simp only [after1_5]
  rw [show (dat1 V c).Φ t.succ = (dat1 V c).Φ t.castSucc from rfl,
    show (dat1 V c).owesAt () t.succ = (dat1 V c).owesAt () t.castSucc from rfl]
  show _ ⊢ wp _ _ _ (bodyAt1 t) _
  exact sound_kernel1 c (before1 V c t 0 rfl) (before1 V c t 1 rfl) (before1 V c t 2 rfl) (before1 V c t 3 rfl) (before1 V c t 4 rfl)

end Cert.KernelIdeal.Hand

end
-- ==== Proof.KIReg2.lean ====
import proofs.«174456_j18270790877215_2_alg».proof.Proof.Gen.KernelIdeal.Launch
import proofs.«174456_j18270790877215_2_alg».proof.Proof.Gen.KernelIdeal.Skeleton
import proofs.«174456_j18270790877215_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX2 : Rect S128x512 := Rect.unit (s := S128x512) ![0, 0] S128x512.size inb_S128x512_S128x512_0_0
abbrev rW2 : Rect S512x512 := Rect.unit (s := S512x512) ![0, 0] S512x512.size inb_S512x512_S512x512_0_0

def out2_2 (x0 : Vec F S128x512 .f32) (x1 : Vec F S512x512 .bf16) : Vec F S128x512 .bf16 :=
  View.canon [⟨rX2, k2_pay1 (View.ld x0 rX2) (View.ld x1 rW2)⟩]

/-- The body leaves its inputs as they are and `out2_2` of them in the output; `R`, `S` are carried along. -/
theorem sound_kernel2 (c : Dev nD) {i : grid2.Coords}
    {arg1 : Memref sig .tc .vmem S128x512 .f32} {harg1 : arg1.IsWhole} {arg2 : Memref sig .tc .vmem S512x512 .bf16} {harg2 : arg2.IsWhole}
    {arg3 : Memref sig .tc .vmem S128x512 .bf16} {harg3 : arg3.IsWhole} {δ0 δ1 δ2 : Type}
    {b0 : δ0 → Vec F S128x512 .f32} {b1 : δ1 → Vec F S512x512 .bf16} {b2 : δ2 → Vec F S128x512 .bf16} {x0 x1}
    (h0 : ∀ d, b0 d = x0) (h1 : ∀ d, b1 d = x1) {R S : sProp (MT nD τ sig Unit (Elt F) ℕ (UR sig nD τ) ℕ)} :
    iprop(R ∗ S ∗ (∃ d, owns (c : Thread nD τ) arg1 fullShare (b0 d)) ∗ (∃ d, owns (c : Thread nD τ) arg2 fullShare (b1 d))
        ∗ ∃ d, owns (c : Thread nD τ) arg3 fullShare (b2 d))
      ⊢ wp frame (wpE (defs₀ (F := F)) Variants.none c none) Set.univ (cc2__proj_kernel i arg1 harg1 arg2 harg2 arg3 harg3) fun _ =>
        iprop(R ∗ S ∗ owns (c : Thread nD τ) arg1 fullShare x0 ∗ owns (c : Thread nD τ) arg2 fullShare x1
          ∗ owns (c : Thread nD τ) arg3 fullShare (out2_2 x0 x1)) := by
  rw [cc2__proj_kernel_eq_skeleton]; unfold cc2__proj_kernel_skel owns
  simp only [h0, h1]
  iintro ⟨HR, HS, ⟨%_, %f0, %e0, H0⟩, ⟨%_, %f1, %e1, H1⟩, %_, %f2, -, H2⟩
  subst e0 e1
  sl_exec
  sl_step
  iframe HR HS
  isplitl [H0]; · iexists f0; iframe; ipureintro; rfl
  isplitl [H1]; · iexists f1; iframe; ipureintro; rfl
  iexists _; iframe; ipureintro
  exact View.read_writes_eq_canon _ _ _ (View.cover_of_tiled _ S128x512.size rfl)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t = out2_2 (iblk2 V c 0 t) (iblk2 V c 1 t) := by dsimp only [dat2]

theorem before2 (c : Dev nD) (t : Fin cfg2.N) :
    ∀ w, (cfg2.win w).isOut = false → ∀ d, (dat2 V c).before w t d = (dat2 V c).fetched w t d
  | ⟨0, _⟩, _, d | ⟨1, _⟩, _, d => (dat2 V c).before_in_eq_fetched _ rfl (fun _ => rfl) (fun _ _ _ => rfl) (fun _ => rfl) t d
  | ⟨2, _⟩, h, _ => nomatch h

theorem body_obligation2 (c : Dev nD) : BodyObligation (dat2 (F := F) V c) (defs₀ (F := F)) Variants.none () Set.univ := fun t => by
  rw [bigSep_W2, bigSep_W2]
  simp only [after2_2]
  show _ ⊢ wp _ _ _ (bodyAt2 t) _
  exact sound_kernel2 c (before2 V c t 0 rfl) (before2 V c t 1 rfl)

end Cert.KernelIdeal.Hand

end
-- ==== Proof.KIReg3.lean ====
import proofs.«174456_j18270790877215_2_alg».proof.Proof.Gen.KernelIdeal.Launch
import proofs.«174456_j18270790877215_2_alg».proof.Proof.Gen.KernelIdeal.Skeleton
import proofs.«174456_j18270790877215_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rG3 : Rect S128x9088 := Rect.unit (s := S128x9088) ![0, 0] S128x9088.size inb_S128x9088_S128x9088_0_0
abbrev rX3 : Rect S128x512 := Rect.unit (s := S128x512) ![0, 0] S128x512.size inb_S128x512_S128x512_0_0
abbrev rP3 : Rect S9088x512 := Rect.unit (s := S9088x512) ![0, 0] S9088x512.size inb_S9088x512_S9088x512_0_0
abbrev rW3 : Rect S512x512 := Rect.unit (s := S512x512) ![0, 0] S512x512.size inb_S512x512_S512x512_0_0

def out3_5 (g : Vec F S128x9088 .f32) (x : Vec F S128x512 .f32) (p : Vec F S9088x512 .bf16) (a b : Vec F S512x512 .bf16) : Vec F S128x512 .f32 :=
  View.canon [⟨rX3, k3_pay1 (View.ld g rG3) (View.ld p rP3) (View.ld x rX3) (View.ld a rW3) (View.ld b rW3)⟩]

set_option maxHeartbeats 1000000 in
theorem sound_kernel3 (c : Dev nD) {i : grid3.Coords}
    {arg1 : Memref sig .tc .vmem S128x9088 .f32} {harg1 : arg1.IsWhole} {arg2 : Memref sig .tc .vmem S128x512 .f32} {harg2 : arg2.IsWhole}
    {arg3 : Memref sig .tc .vmem S9088x512 .bf16} {harg3 : arg3.IsWhole} {arg4 : Memref sig .tc .vmem S512x512 .bf16} {harg4 : arg4.IsWhole}
    {arg5 : Memref sig .tc .vmem S512x512 .bf16} {harg5 : arg5.IsWhole} {arg6 : Memref sig .tc .vmem S128x512 .f32} {harg6 : arg6.IsWhole}
    {δ0 δ1 δ2 δ3 δ4 δ5 : Type} {b0 : δ0 → Vec F S128x9088 .f32} {b1 : δ1 → Vec F S128x512 .f32} {b2 : δ2 → Vec F S9088x512 .bf16}
    {b3 : δ3 → Vec F S512x512 .bf16} {b4 : δ4 → Vec F S512x512 .bf16} {b5 : δ5 → Vec F S128x512 .f32} {g x p a b}
    (h0 : ∀ d, b0 d = g) (h1 : ∀ d, b1 d = x) (h2 : ∀ d, b2 d = p) (h3 : ∀ d, b3 d = a) (h4 : ∀ d, b4 d = b)
    {R S : sProp (MT nD τ sig Unit (Elt F) ℕ (UR sig nD τ) ℕ)} :
    iprop(R ∗ S ∗ (∃ d, owns (c : Thread nD τ) arg1 fullShare (b0 d)) ∗ (∃ d, owns (c : Thread nD τ) arg2 fullShare (b1 d))
        ∗ (∃ d, owns (c : Thread nD τ) arg3 fullShare (b2 d)) ∗ (∃ d, owns (c : Thread nD τ) arg4 fullShare (b3 d))
        ∗ (∃ d, owns (c : Thread nD τ) arg5 fullShare (b4 d)) ∗ ∃ d, owns (c : Thread nD τ) arg6 fullShare (b5 d))
      ⊢ wp frame (wpE (defs₀ (F := F)) Variants.none c none) Set.univ
          (cc3__layer_kernel i arg1 harg1 arg2 harg2 arg3 harg3 arg4 harg4 arg5 harg5 arg6 harg6) fun _ =>
        iprop(R ∗ S ∗ owns (c : Thread nD τ) arg1 fullShare g ∗ owns (c : Thread nD τ) arg2 fullShare x ∗ owns (c : Thread nD τ) arg3 fullShare p
          ∗ owns (c : Thread nD τ) arg4 fullShare a ∗ owns (c : Thread nD τ) arg5 fullShare b
          ∗ owns (c : Thread nD τ) arg6 fullShare (out3_5 g x p a b)) := by
  rw [cc3__layer_kernel_eq_skeleton]; unfold cc3__layer_kernel_skel owns
  simp only [h0, h1, h2, h3, h4]
  iintro ⟨HR, HS, ⟨%_, %f0, %e0, H0⟩, ⟨%_, %f1, %e1, H1⟩, ⟨%_, %f2, %e2, H2⟩, ⟨%_, %f3, %e3, H3⟩, ⟨%_, %f4, %e4, H4⟩, %_, %f5, -, H5⟩
  subst e0 e1 e2 e3 e4
  sl_exec
  sl_step
  iframe HR HS
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  iexists _; iframe; ipureintro
  exact View.read_writes_eq_canon _ _ _ (View.cover_of_tiled _ S128x512.size rfl)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3 (c : Dev nD) (t : Fin cfg3.N) :
    ∀ w, (cfg3.win w).isOut = false → ∀ d, (dat3 V c).before w t d = (dat3 V c).fetched w t d
  | ⟨0, _⟩, _, d | ⟨1, _⟩, _, d | ⟨2, _⟩, _, d | ⟨3, _⟩, _, d | ⟨4, _⟩, _, d =>
    (dat3 V c).before_in_eq_fetched _ rfl (fun _ => rfl) (fun _ _ _ => rfl) (fun _ => rfl) t d
  | ⟨5, _⟩, h, _ => nomatch h

theorem body_obligation3 (c : Dev nD) : BodyObligation (dat3 (F := F) V c) (defs₀ (F := F)) Variants.none () Set.univ := fun t => by
  rw [bigSep_W3, bigSep_W3]
  simp only [after3_5]
  rw [show (dat3 V c).Φ t.succ = (dat3 V c).Φ t.castSucc from rfl,
    show (dat3 V c).owesAt () t.succ = (dat3 V c).owesAt () t.castSucc from rfl]
  show _ ⊢ wp _ _ _ (bodyAt3 t) _
  exact sound_kernel3 c (before3 V c t 0 rfl) (before3 V c t 1 rfl) (before3 V c t 2 rfl) (before3 V c t 3 rfl) (before3 V c t 4 rfl)

end Cert.KernelIdeal.Hand

end
-- ==== Proof.KIRun.lean ====
import proofs.«174456_j18270790877215_2_alg».proof.Proof.Gen.KernelIdeal.Regions
import proofs.«174456_j18270790877215_2_alg».proof.Proof.KIReg0
import proofs.«174456_j18270790877215_2_alg».proof.Proof.KIReg1
import proofs.«174456_j18270790877215_2_alg».proof.Proof.KIReg2
import proofs.«174456_j18270790877215_2_alg».proof.Proof.KIReg3

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Vr (W : Dev nD → Valuation τ sig (Elt F)) : (c : Dev nD) → (b : Ref sig .tc) → Buf (Elt F) ((c : Thread nD τ).loc b) :=
  fun c b => W c b

abbrev B9 : Dev nD → Valuation τ sig (Elt F) := fun c => V9 m c

def B10 (c : Dev nD) : Valuation τ sig (Elt F) :=
  Pipeline.withArrays spec0 c (B9 m c) fun w => (dat0 (Vr (B9 m)) c).arrAt w cfg0.N
theorem B10_arr (c : Dev nD) (w : Fin cfg0.W) :
    B10 m c (Proc.devRef .tc (Pipeline.arrRef spec0 w)) = (dat0 (Vr (B9 m)) c).arrAt w cfg0.N :=
  Pipeline.withArrays_arr spec0 launch0.win.arr_inj c _ _ w
theorem B10_of_ne (c : Dev nD) (b : Ref sig .tc) (hb : ∀ w, Pipeline.arrRef spec0 w ≠ b) :
    B10 m c (Proc.devRef .tc b) = B9 m c (Proc.devRef .tc b) :=
  Pipeline.withArrays_of_ne spec0 c _ _ b hb

def B11 (c : Dev nD) : Valuation τ sig (Elt F) :=
  Pipeline.withArrays spec1 c (B10 m c) fun w => (dat1 (Vr (B10 m)) c).arrAt w cfg1.N
theorem B11_arr (c : Dev nD) (w : Fin cfg1.W) :
    B11 m c (Proc.devRef .tc (Pipeline.arrRef spec1 w)) = (dat1 (Vr (B10 m)) c).arrAt w cfg1.N :=
  Pipeline.withArrays_arr spec1 launch1.win.arr_inj c _ _ w
theorem B11_of_ne (c : Dev nD) (b : Ref sig .tc) (hb : ∀ w, Pipeline.arrRef spec1 w ≠ b) :
    B11 m c (Proc.devRef .tc b) = B10 m c (Proc.devRef .tc b) :=
  Pipeline.withArrays_of_ne spec1 c _ _ b hb

abbrev B12 : Dev nD → Valuation τ sig (Elt F) := fun c => StableHlo.after hostOps2 (B11 m c)

def B13 (c : Dev nD) : Valuation τ sig (Elt F) :=
  Pipeline.withArrays spec2 c (B12 m c) fun w => (dat2 (Vr (B12 m)) c).arrAt w cfg2.N
theorem B13_arr (c : Dev nD) (w : Fin cfg2.W) :
    B13 m c (Proc.devRef .tc (Pipeline.arrRef spec2 w)) = (dat2 (Vr (B12 m)) c).arrAt w cfg2.N :=
  Pipeline.withArrays_arr spec2 launch2.win.arr_inj c _ _ w
theorem B13_of_ne (c : Dev nD) (b : Ref sig .tc) (hb : ∀ w, Pipeline.arrRef spec2 w ≠ b) :
    B13 m c (Proc.devRef .tc b) = B12 m c (Proc.devRef .tc b) :=
  Pipeline.withArrays_of_ne spec2 c _ _ b hb

def B14 (c : Dev nD) : Valuation τ sig (Elt F) :=
  Pipeline.withArrays spec3 c (B13 m c) fun w => (dat3 (Vr (B13 m)) c).arrAt w cfg3.N
theorem B14_arr (c : Dev nD) (w : Fin cfg3.W) :
    B14 m c (Proc.devRef .tc (Pipeline.arrRef spec3 w)) = (dat3 (Vr (B13 m)) c).arrAt w cfg3.N :=
  Pipeline.withArrays_arr spec3 launch3.win.arr_inj c _ _ w
theorem B14_of_ne (c : Dev nD) (b : Ref sig .tc) (hb : ∀ w, Pipeline.arrRef spec3 w ≠ b) :
    B14 m c (Proc.devRef .tc b) = B13 m c (Proc.devRef .tc b) :=
  Pipeline.withArrays_of_ne spec3 c _ _ b hb

abbrev B15 : Dev nD → Valuation τ sig (Elt F) := fun c => StableHlo.after hostOps4 (B14 m c)

def pdats : (p : Fin 4) → (c : Dev nD) → Dat τ (Elt F) Unit ℕ (UR sig nD τ) ℕ (cfgs p) c
  | ⟨0, _⟩ => dat0 (Vr (B9 m))
  | ⟨1, _⟩ => dat1 (Vr (B10 m))
  | ⟨2, _⟩ => dat2 (Vr (B12 m))
  | ⟨3, _⟩ => dat3 (Vr (B13 m))

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 5 → Dev nD → sProp 𝕄 := fun _ => R

set_option backward.isDefEq.respectTransparency.types false in
/-- One record serves all four launches: they differ only in `p` and in the contents `V` they are entered at. -/
def reg {pd : (p : Fin 4) → (c : Dev nD) → Dat τ (Elt F) Unit ℕ (UR sig nD τ) ℕ (cfgs p) c} {p : Fin 4}
    (ln : Pipeline.LaunchFacts (nD := nD) (τ := τ) cfgs p) (V : Dev nD → Valuation τ sig (Elt F))
    (hb : ∀ c, BodyObligation (pd p c) (defs₀ (F := F)) 𝒱₀ () Set.univ)
    (hA : ∀ c w, (pd p c).A w = Vr V c (Pipeline.arrRef (cfgs p).spec w) := by intros; rfl)
    (hΦ : ∀ c t, (pd p c).Φ t = Pipeline.ΦA (cfgs p).spec c := by intros; rfl) (hq : ∀ c w, (pd p c).q w = fullShare := by intros; rfl)
    (h0 : ∀ c t, (pd p c).owed t = 0 := by intros; rfl) (hr : ∀ c t, (pd p c).recorded t = Set.univ := by intros; rfl) :
    RegionSeg (pcfgs (F := F)) adm pd () defs₀ 𝒱₀ L lv p where
  win := ln.win.to₀
  block_pos := ln.block_pos
  stage_whole := ln.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) fun w => (pd p c).arrAt w (cfgs p).N) ∗ R c)
  X c := iprop(∃ r, prngReg c r)
  Y c := iprop(∃ r, prngReg c r)
  Z c := Pipeline.unscopedRest (cfgs p).spec c (Vr V c)
  hentry c := by
    have hs := Pipeline.arrays_of_unscopedBufs (p := p) (pcfgs (F := F)) adm pd ln.win ln.arr_whole c
      ((pd p c).share_full (hq c)) (Vr V c) (hA c)
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0 c, hr c]
      icases HO with ⟨%W, HO⟩; iexists W; isplitr; · ipureintro; exact fun _ _ => Or.inl trivial
      iexact HO
    isplitl [Hp] <;> iassumption
  hin c := by
    rw [hΦ c]; unfold Pipeline.ΦA
    iintro ⟨Hp, -, Hr⟩
    isplitl [Hr] <;> iassumption
  hout c := by
    rw [Pipeline.ownSems0_none, hΦ c]; unfold Pipeline.ΦA
    iintro ⟨Hr, Hp⟩
    isplitl [Hp]; · iexact Hp
    isplitr; · iempintro
    iexact Hr
  hexit c := by
    have hj := Pipeline.unscopedBufs_of_arrays (p := p) (pcfgs (F := F)) adm ln.win ln.arr_whole c pd ((pd p c).share_full (hq c)) (Vr V c)
      (Vr (fun c => Pipeline.withArrays (cfgs p).spec c (V c) ((pd p c).arrAt · (cfgs p).N)) c) ((pd p c).arrAt · (cfgs p).N)
      (fun w => (Pipeline.withArrays_arr (cfgs p).spec ln.win.arr_inj c (V c) ((pd p c).arrAt · (cfgs p).N) w).symm)
      fun b hb => Pipeline.withArrays_of_ne (cfgs p).spec c (V c) ((pd p c).arrAt · (cfgs p).N) b fun w e =>
        hb (Finset.mem_image.mpr ⟨w, Finset.mem_univ _, e⟩)
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin; rw [h0 c]
    icases HO with ⟨%W, -, HO⟩; iexists W; iexact HO

def hseg (ops : List (HloOp τ sig (Elt F))) (hs : ops.Forall fun op => op.bufs ⊆ StableHlo.tcRefs τ sig)
    (hf : ops.Forall fun op => op.fresh = ∅) (V : Dev nD → Valuation τ sig (Elt F)) :
    HostSeg (Ix := Unit) (Name := ℕ) (U := UR sig nD τ) (Lvl := ℕ) (pcfgs (F := F)) defs₀ 𝒱₀ L lv :=
  HostSeg.ofOps _ _ _ _ _ (Pipeline.ucRefs τ sig) ops (fun op h => Pipeline.sub_ucRefs op (List.forall_iff_forall_mem.mp hs op h))
    (List.forall_iff_forall_mem.mp hf) V R

abbrev mainSegs : List (Seg (pcfgs (F := F)) adm (pdats m) () defs₀ 𝒱₀ L lv) :=
  [.host (seg0 m 𝒱₀ L lv E), .host (seg1 m 𝒱₀ L lv E), .host (seg2 m 𝒱₀ L lv E), .host (seg3 m 𝒱₀ L lv E), .host (seg4 m 𝒱₀ L lv E),
   .host (seg5 m 𝒱₀ L lv E), .host (seg6 m 𝒱₀ L lv E), .host (seg7 m 𝒱₀ L lv E), .host (seg8 m 𝒱₀ L lv E),
   .region (reg launch0 (B9 m) (body_obligation0 _)),
   .region (reg launch1 (B10 m) (body_obligation1 _)),
   .host (hseg hostOps2 hostOps2_sub hostOps2_fresh (B11 m)),
   .region (reg launch2 (B12 m) (body_obligation2 _)),
   .region (reg launch3 (B13 m) (body_obligation3 _)),
   .host (hseg hostOps4 hostOps4_sub hostOps4_fresh (B14 m))]

abbrev u₀ : UR sig nD τ := initOf (Pipeline.cells cfgs cellOf_inj) (Pipeline.launchToks cfgs cellOf_inj)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = B15 m c b) := by
  refine Pipeline.θ_run_regions_kit_dev (pcfgs (F := F)) adm (pdats m) () cellOf_inj emb₁ defs₀ 𝒱₀ L lv m ρ main
    (fun _ => mainSegs m)
    (fun c Q => by
      rewrite [main_chain c, Seg.run_eq_chain,
        show (mainSegs m).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4 ] from rfl]
      exact .rfl)
    (fun c => by simp only [mainSegs, Seg.pipes_host, Seg.pipes_region, Seg.pipes_nil]; decide)
    (O₀ := 0) (hL := fun _ _ => rfl) (G := fun _ => BI.emp)
    (u₀ := u₀)
    (hu₀ := by
      rw [BI.bigSep_emp_const]; iintro Hu; imodintro
      isplitl [Hu]
      · iapply (show (ownU u₀ : sProp 𝕄) ⊢ BI.own (emb₁ u₀) from .rfl); iexact Hu
      iempintro)
    (T₀ := fun c => iprop(StableHlo.held (c : Thread nD τ) (Pipeline.ucRefs τ sig) (V0 m c) ∗ R c))
    (Tₙ := fun c => StableHlo.held (c : Thread nD τ) (Pipeline.ucRefs τ sig) (B15 m c))
    (hch := fun c => ⟨.rfl, .rfl, .rfl, .rfl, .rfl, .rfl, .rfl, .rfl, .rfl, .rfl, .rfl, .rfl, .rfl, .rfl, .rfl, sep_mono .rfl sep_elim_right⟩)
    (hinit := by
      refine Pipeline.initEach L lv fun c => ?_
      erw [Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B15 m c b)
    (hfin := fun c s' => by
      iintro ⟨Hh, HSI⟩
      unfold StableHlo.held
      imodintro
      iapply (pointsTo_read_all (Pipeline.ucRefs τ sig) (fun b => (((c : Thread nD τ)).1, b)) (B15 m c) s')
      isplitl [Hh] <;> iassumption)
    (hQ := fun s h c => h c)

end Cert.KernelIdeal.Hand

end
-- ==== Proof.KIArgs.lean ====
import proofs.«174456_j18270790877215_2_alg».proof.Proof.KIRun

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (ρ : Dev nD → PrngReg)

/-- Why an argument ends as launched: no stretch writes it and it is no launch's array, so every boundary leaves it alone. -/
theorem arg_kept {s : MemSt nD τ sig (Elt F)} (c : Dev nD) (r : Ref sig .tc)
    (h : ∀ b ∈ Pipeline.ucRefs τ sig, s.mem (((c : Thread nD τ)).1, b) = B15 m c b)
    (hu : ¬ (Proc.devRef .tc r : DevRef τ sig).isScoped := by decide)
    (h0 : r ∉ hostOps0_W := by decide) (h1 : r ∉ hostOps0_1_W := by decide) (h2 : r ∉ hostOps0_2_W := by decide)
    (h3 : r ∉ hostOps0_3_W := by decide) (h4 : r ∉ hostOps0_4_W := by decide) (h5 : r ∉ hostOps0_5_W := by decide)
    (h6 : r ∉ hostOps0_6_W := by decide) (h7 : r ∉ hostOps0_7_W := by decide) (h8 : r ∉ hostOps0_8_W := by decide)
    (k0 : ∀ w, Pipeline.arrRef spec0 w ≠ r := by decide) (k1 : ∀ w, Pipeline.arrRef spec1 w ≠ r := by decide)
    (h11 : r ∉ hostOps2_W := by decide) (k2 : ∀ w, Pipeline.arrRef spec2 w ≠ r := by decide)
    (k3 : ∀ w, Pipeline.arrRef spec3 w ≠ r := by decide) (h14 : r ∉ hostOps4_W := by decide) :
    s.mem ((c.tc : Thread nD τ).loc r) = m ((c.tc : Thread nD τ).loc r) :=
  (h _ (Finset.mem_filter.mpr ⟨StableHlo.devRef_mem_tcRefs r, hu⟩)).trans <|
  (StableHlo.after_of_writes_sub hostOps4 _ hostOps4_writes h14).trans <|
  (B14_of_ne m c r k3).trans <| (B13_of_ne m c r k2).trans <|
  (StableHlo.after_of_writes_sub hostOps2 _ hostOps2_writes h11).trans <|
  (B11_of_ne m c r k1).trans <| (B10_of_ne m c r k0).trans <|
  (V9_of m c r h8).trans <| (V8_of m c r h7).trans <| (V7_of m c r h6).trans <| (V6_of m c r h5).trans <|
  (V5_of m c r h4).trans <| (V4_of m c r h3).trans <| (V3_of m c r h2).trans <| (V2_of m c r h1).trans <| V1_of m c r h0

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨arg_kept m c main_arg0 (h c),
    arg_kept m c main_arg1 (h c),
    arg_kept m c main_arg2 (h c),
    arg_kept m c main_arg3 (h c),
    arg_kept m c main_arg4 (h c),
    arg_kept m c main_arg5 (h c),
    arg_kept m c main_arg6 (h c),
    arg_kept m c main_arg7 (h c),
    arg_kept m c main_arg8 (h c),
    arg_kept m c main_arg9 (h c),
    arg_kept m c main_arg10 (h c),
    arg_kept m c main_arg11 (h c),
    arg_kept m c main_arg12 (h c)⟩) (run_all m ρ)

end Cert.KernelIdeal.Hand

end
-- ==== Proof.SpecArr.lean ====
import Idealize.ShloMosaic.PureOps.Ideal
import Idealize.ShloMosaic.Lib.ValueIdx

noncomputable section

namespace Cert.Spec

open Idealize.ShloMosaic Idealize.ShloMosaic.ValueIdx

abbrev Sh9088x512 : Shape := ⟨2, ![9088, 512]⟩
abbrev Sh9088x9088 : Shape := ⟨2, ![9088, 9088]⟩
abbrev Sh512x512 : Shape := ⟨2, ![512, 512]⟩

def projAt (x : Sh9088x512.Idx → EReal) (w : Sh512x512.Idx → EReal) (r : Fin 9088) (q : Fin 512) : EReal :=
  ∑ k : Fin 512, x (ix2 r k) * w (ix2 k q)

def projArr (x : Sh9088x512.Idx → EReal) (w : Sh512x512.Idx → EReal) : Sh9088x512.Idx → EReal :=
  fun i => projAt x w (i 0) (i 1)

def nbAt (g : Sh9088x9088.Idx → EReal) (p : Sh9088x512.Idx → EReal) (r : Fin 9088) (k : Fin 512) : EReal :=
  ∑ l : Fin 9088, g (ix2 r l) * p (ix2 l k)

def lrelu (y : EReal) : EReal :=
  Scalar.select (FloatOps.cmpf (F := Ideal) (φ := .f32) .oge y (Ideal.ofBits .f32 0x00000000#32)) y (Ideal.ofBits .f32 0x3C23D70A#32 * y)

def layerAt (g : Sh9088x9088.Idx → EReal) (x p : Sh9088x512.Idx → EReal) (a b : Sh512x512.Idx → EReal) (r : Fin 9088) (q : Fin 512) : EReal :=
  lrelu ((∑ k : Fin 512, (x (ix2 r k) + nbAt g p r k) * a (ix2 k q)) + ∑ k : Fin 512, (x (ix2 r k) * nbAt g p r k) * b (ix2 k q))

def layerArr (g : Sh9088x9088.Idx → EReal) (x p : Sh9088x512.Idx → EReal) (a b : Sh512x512.Idx → EReal) : Sh9088x512.Idx → EReal :=
  fun i => layerAt g x p a b (i 0) (i 1)

end Cert.Spec

end
-- ==== Proof.SpecK.lean ====
import proofs.«174456_j18270790877215_2_alg».proof.Proof.Gen.KernelIdeal
import proofs.«174456_j18270790877215_2_alg».proof.Proof.SpecArr

noncomputable section

namespace Cert.KernelIdeal.Hand

open Cert.KernelIdeal Cert.KernelIdeal.Facts₀ Cert.KernelIdeal.Facts Idealize.ShloMosaic

variable {F : FTy → Type} [FloatOps F]

def feat (a0 a1 a2 : FVec F S3000x512 .f32) : FVec F S9000x512 .f32 :=
  concatenate S9000x512 0 [⟨S3000x512, a0⟩, ⟨S3000x512, a1⟩, ⟨S3000x512, a2⟩] concatenates_S3000x512_S3000x512_S3000x512_S9000x512_d0

def srcOf (a3 : IVec S2x200000 32) : IVec S200000 32 :=
  shapeCast S200000 (extractStridedSlice S1x200000 ![0, 0] a3 slices_S2x200000_S1x200000_0_0) shapeCasts_S1x200000_S200000
def tgtOf (a3 : IVec S2x200000 32) : IVec S200000 32 :=
  shapeCast S200000 (extractStridedSlice S1x200000 ![1, 0] a3 slices_S2x200000_S1x200000_1_0) shapeCasts_S1x200000_S200000

def wrapBy (n : BitVec 32) (i : IVec S200000 32) : IVec S200000 32 :=
  select (cmpi .slt i (broadcastInDim S200000 ![] bcast_S_S200000 (constantI S_ 32 0#32)))
    (addi i (broadcastInDim S200000 ![] bcast_S_S200000 (constantI S_ 32 n))) i

def col (i : IVec S200000 32) : IVec S200000x1 32 := broadcastInDim S200000x1 ![0] bcast_S200000_S200000x1_0 i

def idxPair (i j : IVec S200000 32) : IVec S200000x2 32 :=
  concatenate S200000x2 1 [⟨S200000x1, col i⟩, ⟨S200000x1, col j⟩] concatenates_S200000x1_S200000x1_S200000x2_d1

def edgeZ (p q : FVec F S200000x128 .f32) (a5 : FVec F S128x256 .f32) (a6 : FVec F S128 .f32) : FVec F S200000x128 .f32 :=
  addf (Host.dotGeneral dot_S200000x256_S256x128_S200000x128_1_0_0_1_n_n none
      (concatenate S200000x256 1 [⟨S200000x128, p⟩, ⟨S200000x128, q⟩] concatenates_S200000x128_S200000x128_S200000x256_d1)
      (transpose S256x128 [1, 0] a5 transposes_S128x256_S256x128_1_0))
    (broadcastInDim S200000x128 ![0, 1] bcast_S1x128_S200000x128_0_1 (broadcastInDim S1x128 ![1] bcast_S128_S1x128_1 a6))

def edgeH (z : FVec F S200000x128 .f32) : FVec F S200000x128 .f32 :=
  select (cmpf .oge z (broadcastInDim S200000x128 ![] bcast_S_S200000x128 (constant S_ .f32 0x00000000#32))) z
    (mulf (broadcastInDim S200000x128 ![] bcast_S_S200000x128 (id (constant S_ .f32 0x3C23D70A#32))) z)

def edgeOut (h : FVec F S200000x128 .f32) (a7 : FVec F S1x128 .f32) (a8 : FVec F S1 .f32) : FVec F S200000 .f32 :=
  Host.divf (broadcastInDim S200000 ![] bcast_S_S200000 (constant S_ .f32 0x3F800000#32))
    (addf (broadcastInDim S200000 ![] bcast_S_S200000 (constant S_ .f32 0x3F800000#32))
      (Host.exp (Host.negf (shapeCast S200000
        (addf (Host.dotGeneral dot_S200000x128_S128x1_S200000x1_1_0_0_1_n_n none h (transpose S128x1 [1, 0] a7 transposes_S1x128_S128x1_1_0))
          (broadcastInDim S200000x1 ![0, 1] bcast_S1x1_S200000x1_0_1 (broadcastInDim S1x1 ![1] bcast_S1_S1x1_1 a8)))
        shapeCasts_S200000x1_S200000))))

def edgeW (p q : FVec F S200000x128 .f32) (a5 : FVec F S128x256 .f32) (a6 : FVec F S128 .f32) (a7 : FVec F S1x128 .f32) (a8 : FVec F S1 .f32) :
    FVec F S200000 .f32 :=
  edgeOut (edgeH (edgeZ p q a5 a6)) a7 a8

def dInv (rs : FVec F S9000 .f32) : FVec F S9000 .f32 :=
  select (cmpf .ogt rs (broadcastInDim S9000 ![] bcast_S_S9000 (constant S_ .f32 0x00000000#32)))
    (Host.powf rs (broadcastInDim S9000 ![] bcast_S_S9000 (constant S_ .f32 0xBF000000#32)))
    (broadcastInDim S9000 ![] bcast_S_S9000 (id (constant S_ .f32 0x00000000#32)))

def rowNorm (y : FVec F S9000x128 .f32) : FVec F S9000x1 .f32 :=
  Host.sqrt (broadcastInDim S9000x1 ![0] bcast_S9000_S9000x1_0
    (Host.reduceAdd (mulf y y) (constant S_ .f32 0x00000000#32) reducesTo_S9000x128_S9000_d1 h_S_))

def l2n (y : FVec F S9000x128 .f32) : FVec F S9000x128 .f32 :=
  Host.divf y (broadcastInDim S9000x128 ![0, 1] bcast_S9000x1_S9000x128_0_1
    (maximumf (rowNorm y) (broadcastInDim S9000x1 ![] bcast_S_S9000x1 (constant S_ .f32 0x2B8CBCCC#32))))

def sharedAll (f : FVec F S9000x512 .f32) (a4 : FVec F S128x512 .f32) : FVec F S9000x128 .f32 :=
  l2n (Host.dotGeneral dot_S9000x512_S512x128_S9000x128_1_0_0_1_n_n none f (transpose S512x128 [1, 0] a4 transposes_S128x512_S512x128_1_0))

def sharedAt (q : FVec F S9000x128 .f32) (i : IVec S200000 32) : FVec F S200000x128 .f32 :=
  Host.gather gather_S9000x128_S200000x1_S200000x128_1_0_n_n_0_1_1128 q (col (wrapBy 9000#32 i))

def rowSumK (src : IVec S200000 32) (w : FVec F S200000 .f32) : FVec F S9000 .f32 :=
  Host.scatterAdd scatter_S9000_S200000x1_S200000_n_0_0_1 (broadcastInDim S9000 ![] bcast_S_S9000 (constant S_ .f32 0x00000000#32)) (col src) w

def dAt (d : FVec F S9000 .f32) (i : IVec S200000 32) : FVec F S200000 .f32 :=
  Host.gather gather_S9000_S200000x1_S200000_n_0_n_n_0_1_1 d (col (wrapBy 9000#32 i))

def scaledW (w : FVec F S200000 .f32) (d : FVec F S9000 .f32) (src tgt : IVec S200000 32) : FVec F S200000 .f32 :=
  mulf (mulf w (dAt d src)) (dAt d tgt)

def gcnPad (src tgt : IVec S200000 32) (sw : FVec F S200000 .f32) : FVec F S9088x9088 .f32 :=
  Host.scatterAdd scatter_S9088x9088_S200000x2_S200000_n_01_01_1
    (broadcastInDim S9088x9088 ![] bcast_S_S9088x9088 (constant S_ .f32 0x00000000#32)) (idxPair (wrapBy 9088#32 src) (wrapBy 9088#32 tgt)) sw

def gcnK (a0 a1 a2 : FVec F S3000x512 .f32) (a3 : IVec S2x200000 32) (a4 : FVec F S128x512 .f32) (a5 : FVec F S128x256 .f32)
    (a6 : FVec F S128 .f32) (a7 : FVec F S1x128 .f32) (a8 : FVec F S1 .f32) : FVec F S9088x9088 .f32 :=
  gcnPad (srcOf a3) (tgtOf a3)
    (scaledW (edgeW (sharedAt (sharedAll (feat a0 a1 a2) a4) (srcOf a3)) (sharedAt (sharedAll (feat a0 a1 a2) a4) (tgtOf a3)) a5 a6 a7 a8)
      (dInv (rowSumK (srcOf a3) (edgeW (sharedAt (sharedAll (feat a0 a1 a2) a4) (srcOf a3)) (sharedAt (sharedAll (feat a0 a1 a2) a4) (tgtOf a3)) a5 a6 a7 a8)))
      (srcOf a3) (tgtOf a3))

def xPad (x : FVec F S9000x512 .f32) : FVec F S9088x512 .f32 :=
  pad S9088x512 ![0, 0] ![88, 0] ![0, 0] x (sitofp .f32 (constantI S_ 32 0#32)) pads_S9000x512_S9088x512_0880_000 h_S_

def w1t (w : FVec F S512x512 .f32) : FVec F S512x512 .bf16 :=
  truncf .bf16 (transpose S512x512 [1, 0] w transposes_S512x512_S512x512_1_0) bitsLt_bf16_f32

def w2a (w : FVec F S512x1024 .f32) : FVec F S512x512 .bf16 :=
  truncf .bf16 (transpose S512x512 [1, 0] (extractStridedSlice S512x512 ![0, 0] w slices_S512x1024_S512x512_0_0) transposes_S512x512_S512x512_1_0) bitsLt_bf16_f32
def w2b (w : FVec F S512x1024 .f32) : FVec F S512x512 .bf16 :=
  truncf .bf16 (transpose S512x512 [1, 0] (extractStridedSlice S512x512 ![0, 512] w slices_S512x1024_S512x512_0_512) transposes_S512x512_S512x512_1_0) bitsLt_bf16_f32

def unpad (x : FVec F S9088x512 .f32) : FVec F S9000x512 .f32 :=
  extractStridedSlice S9000x512 ![0, 0] x slices_S9088x512_S9000x512_0_0

def layerK (g : FVec Ideal S9088x9088 .f32) (x : FVec Ideal S9088x512 .f32) (w1 : FVec Ideal S512x512 .f32) (w2 : FVec Ideal S512x1024 .f32) :
    FVec Ideal S9088x512 .f32 :=
  Cert.Spec.layerArr g x (Cert.Spec.projArr x (w1t w1)) (w2a w2) (w2b w2)

def kOut (a0 a1 a2 : FVec Ideal S3000x512 .f32) (a3 : IVec S2x200000 32) (a4 : FVec Ideal S128x512 .f32) (a5 : FVec Ideal S128x256 .f32)
    (a6 : FVec Ideal S128 .f32) (a7 : FVec Ideal S1x128 .f32) (a8 : FVec Ideal S1 .f32) (a9 : FVec Ideal S512x512 .f32)
    (a10 : FVec Ideal S512x1024 .f32) (a11 : FVec Ideal S512x512 .f32) (a12 : FVec Ideal S512x1024 .f32) : FVec Ideal S9000x512 .f32 :=
  unpad (layerK (gcnK a0 a1 a2 a3 a4 a5 a6 a7 a8) (layerK (gcnK a0 a1 a2 a3 a4 a5 a6 a7 a8) (xPad (feat a0 a1 a2)) a9 a10) a11 a12)

end Cert.KernelIdeal.Hand

end
-- ==== Proof.KIHost.lean ====
import proofs.«174456_j18270790877215_2_alg».proof.Proof.KIRun
import proofs.«174456_j18270790877215_2_alg».proof.Proof.SpecK

noncomputable section

namespace Cert.KernelIdeal.Hand

open Cert.KernelIdeal Cert.KernelIdeal.Facts₀ Cert.KernelIdeal.Facts
open Idealize.ShloMosaic Idealize.ShloMosaic.TcCoe Idealize.ShloMosaic.StableHlo

variable {F : FTy → Type} [FloatOps F]

def l2nWith (y : FVec F S9000x128 .f32) (n : FVec F S9000x1 .f32) : FVec F S9000x128 .f32 :=
  Host.divf y (broadcastInDim S9000x128 ![0, 1] bcast_S9000x1_S9000x128_0_1
    (maximumf n (broadcastInDim S9000x1 ![] bcast_S_S9000x1 (constant S_ .f32 0x2B8CBCCC#32))))

section Stretch

variable (V : Valuation τ sig (Elt F))

theorem S0_v0 : after Gen.hostOps0 V main_v0 = feat (V main_arg0) (V main_arg1) (V main_arg2) := by
  after_results; rfl
theorem S0_v2 : after Gen.hostOps0 V main_v2 = srcOf (V main_arg3) := by
  after_results; rfl
theorem S0_v4 : after Gen.hostOps0 V main_v4 = tgtOf (V main_arg3) := by
  after_results; rfl
theorem S0_v6 : after Gen.hostOps0 V main_v6 = Host.dotGeneral dot_S9000x512_S512x128_S9000x128_1_0_0_1_n_n none
    (feat (V main_arg0) (V main_arg1) (V main_arg2)) (transpose S512x128 [1, 0] (V main_arg4) transposes_S128x512_S512x128_1_0) := by
  after_results; rfl
theorem S1_v7 : after Gen.hostOps0_1 V main_v7 = rowNorm (V main_v6) := by
  after_results; rfl
set_option maxHeartbeats 4000000 in
theorem S2_v31 : after Gen.hostOps0_2 V main_v31 = edgeZ (sharedAt (l2nWith (V main_v6) (V main_v7)) (V main_v2))
    (sharedAt (l2nWith (V main_v6) (V main_v7)) (V main_v4)) (V main_arg5) (V main_arg6) := by
  after_results_simp; rfl
theorem S2_cst3 : after Gen.hostOps0_2 V main_cst_3 = constant S_ .f32 0x3C23D70A#32 := by
  after_results
theorem S3_v32 (h : V main_cst_3 = constant S_ .f32 0x3C23D70A#32) : after Gen.hostOps0_3 V main_v32 = edgeH (V main_v31) := by
  after_results; rw [h]; rfl
theorem S4_v44 : after Gen.hostOps0_4 V main_v44 = edgeOut (V main_v32) (V main_arg7) (V main_arg8) := by
  after_results; rfl
set_option maxHeartbeats 4000000 in
theorem S4_v49 : after Gen.hostOps0_4 V main_v49 = cmpf .ogt (rowSumK (V main_v2) (edgeOut (V main_v32) (V main_arg7) (V main_arg8)))
    (broadcastInDim S9000 ![] bcast_S_S9000 (constant S_ .f32 0x00000000#32)) := by
  after_results_simp; rfl
set_option maxHeartbeats 4000000 in
theorem S4_v51 : after Gen.hostOps0_4 V main_v51 = Host.powf (rowSumK (V main_v2) (edgeOut (V main_v32) (V main_arg7) (V main_arg8)))
    (broadcastInDim S9000 ![] bcast_S_S9000 (constant S_ .f32 0xBF000000#32)) := by
  after_results_simp; rfl
theorem S4_cst9 : after Gen.hostOps0_4 V main_cst_9 = constant S_ .f32 0x00000000#32 := by
  after_results
theorem S5_v52 (rs : FVec F S9000 .f32)
    (h49 : V main_v49 = cmpf .ogt rs (broadcastInDim S9000 ![] bcast_S_S9000 (constant S_ .f32 0x00000000#32)))
    (h51 : V main_v51 = Host.powf rs (broadcastInDim S9000 ![] bcast_S_S9000 (constant S_ .f32 0xBF000000#32)))
    (h9 : V main_cst_9 = constant S_ .f32 0x00000000#32) : after Gen.hostOps0_5 V main_v52 = dInv rs := by
  after_results; rw [h49, h51, h9]; rfl
set_option maxHeartbeats 4000000 in
theorem S6_v83 : after Gen.hostOps0_6 V main_v83 = gcnPad (V main_v2) (V main_v4) (scaledW (V main_v44) (V main_v52) (V main_v2) (V main_v4)) := by
  after_results_simp; rfl
theorem S6_c19 : after Gen.hostOps0_6 V main_c_19 = constantI S_ 32 0#32 := by
  after_results
theorem S7_v84 (h : V main_c_19 = constantI S_ 32 0#32) : after Gen.hostOps0_7 V main_v84 = xPad (V main_v0) := by
  after_results; rw [h]; rfl
theorem S8_v86 : after Gen.hostOps0_8 V main_v86 = w1t (V main_arg9) := by
  after_results; rfl
theorem S8_v89 : after Gen.hostOps0_8 V main_v89 = w2a (V main_arg10) := by
  after_results; rfl
theorem S8_v92 : after Gen.hostOps0_8 V main_v92 = w2b (V main_arg10) := by
  after_results; rfl
theorem S11_v96 : after Gen.hostOps2 V main_v96 = w1t (V main_arg11) := by
  after_results; rfl
theorem S11_v99 : after Gen.hostOps2 V main_v99 = w2a (V main_arg12) := by
  after_results; rfl
theorem S11_v102 : after Gen.hostOps2 V main_v102 = w2b (V main_arg12) := by
  after_results; rfl
theorem S14_v105 : after Gen.hostOps4 V main_v105 = unpad (V main_v104) := by
  after_results; rfl

end Stretch

section Chain

variable (m : (ℓ : Loc nD τ sig) → Buf (Elt F) ℓ) (c : Dev nD)

theorem B9_v83 : B9 m c main_v83 = gcnK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (Gen.V9_of m c main_v83 (by decide)).trans <| (Gen.V8_of m c main_v83 (by decide)).trans <| (S6_v83 (Gen.V6 m c)).trans ?_
  rw [show Gen.V6 m c main_v52 = _ from S5_v52 (Gen.V5 m c) _ (S4_v49 _) (S4_v51 _) (S4_cst9 _), Gen.V6_of m c main_v44 (by decide),
    show Gen.V5 m c main_v44 = _ from S4_v44 _, show Gen.V4 m c main_v32 = _ from S3_v32 (Gen.V3 m c) (S2_cst3 _), show Gen.V3 m c main_v31 = _ from S2_v31 _,
    Gen.V6_of m c main_v2 (by decide), Gen.V5_of m c main_v2 (by decide), Gen.V4_of m c main_v2 (by decide), Gen.V3_of m c main_v2 (by decide), Gen.V2_of m c main_v2 (by decide), show Gen.V1 m c main_v2 = _ from S0_v2 _,
    Gen.V6_of m c main_v4 (by decide), Gen.V5_of m c main_v4 (by decide), Gen.V4_of m c main_v4 (by decide), Gen.V3_of m c main_v4 (by decide), Gen.V2_of m c main_v4 (by decide), show Gen.V1 m c main_v4 = _ from S0_v4 _,
    Gen.V4_of m c main_arg7 (by decide), Gen.V3_of m c main_arg7 (by decide), Gen.V2_of m c main_arg7 (by decide), Gen.V1_of m c main_arg7 (by decide), Gen.V4_of m c main_arg8 (by decide), Gen.V3_of m c main_arg8 (by decide), Gen.V2_of m c main_arg8 (by decide), Gen.V1_of m c main_arg8 (by decide),
    Gen.V2_of m c main_arg5 (by decide), Gen.V1_of m c main_arg5 (by decide), Gen.V2_of m c main_arg6 (by decide), Gen.V1_of m c main_arg6 (by decide),
    show Gen.V2 m c main_v7 = _ from S1_v7 _, Gen.V2_of m c main_v6 (by decide), show Gen.V1 m c main_v6 = _ from S0_v6 _]
  rfl
theorem B9_v84 : B9 m c main_v84 = xPad (feat (m ((c : Thread nD τ).loc main_arg0)) (m ((c : Thread nD τ).loc main_arg1)) (m ((c : Thread nD τ).loc main_arg2))) := by
  refine (Gen.V9_of m c main_v84 (by decide)).trans <| (S7_v84 (Gen.V7 m c) (S6_c19 _)).trans ?_
  rw [Gen.V7_of m c main_v0 (by decide), Gen.V6_of m c main_v0 (by decide), Gen.V5_of m c main_v0 (by decide), Gen.V4_of m c main_v0 (by decide), Gen.V3_of m c main_v0 (by decide), Gen.V2_of m c main_v0 (by decide), show Gen.V1 m c main_v0 = _ from S0_v0 _]

end Chain

end Cert.KernelIdeal.Hand

end
-- ==== Proof.KIVal0.lean ====
import proofs.«174456_j18270790877215_2_alg».proof.Proof.KIReg0
import proofs.«174456_j18270790877215_2_alg».proof.Proof.SpecArr
import Idealize.ShloMosaic.Lib.Pipeline.Value
import Idealize.ShloMosaic.Lib.StackMember
import Idealize.ShloMosaic.Lib.KernelVsHost

noncomputable section

namespace Cert.KernelIdeal.Hand

open Cert.KernelIdeal Cert.KernelIdeal.Gen
open Idealize.ShloMosaic Idealize.ShloMosaic.TcCoe Idealize.ShloMosaic.ValueIdx Idealize.ShloMosaic.StackMember Idealize.SL.Sem
open Idealize.ShloMosaic.Pipeline (Dat)

-- Conversions are the identity on the extended reals and a product into a zero accumulator is the plain sum.
theorem pay0_at (x0 : FVec Ideal S128x512 .f32) (x1 : FVec Ideal S512x512 .bf16) (y : S128x512.Idx) :
    k0_pay1 (F := Ideal) x0 x1 y = ∑ k : Fin 512, x0 (ix2 (y 0) k) * x1 (ix2 k (y 1)) := by
  obtain ⟨r, q, rfl⟩ : ∃ (r : Fin 128) (q : Fin 512), y = ix2 r q := ⟨_, _, eq_ix2 y⟩
  unfold k0_pay1
  simp only [shapeCast_self, truncf_apply]
  exact (congrFun (matmul_zero_eq_dotGeneral (DotDims.plain 128 512 512) none _ x1) _).trans (dotGeneral_plain_apply none _ x1 r q)

variable (V : (c : Dev nD) → (b : Ref sig .tc) → Buf (Elt Ideal) ((c : Thread nD τ).loc b))

theorem zero_off0 : (![0, 0] : Fin 2 → Nat) = fun _ => 0 := funext fun a => by fin_cases a <;> rfl

theorem tile_index0 : ∀ t : Fin cfg0.N, (cfg0.win 0).index t (0 : Fin 2) = t.val ∧ (cfg0.win 0).index t (1 : Fin 2) = 0
    ∧ (cfg0.win 1).index t (0 : Fin 2) = 0 ∧ (cfg0.win 1).index t (1 : Fin 2) = 0
    ∧ (cfg0.win 2).index t (0 : Fin 2) = t.val ∧ (cfg0.win 2).index t (1 : Fin 2) = 0 :=
  (by decide +kernel : ∀ t : Fin grid0.N, _)

abbrev prod0 (c : Dev nD) : S9088x512.Idx → EReal :=
  Cert.Spec.projArr (V c (Pipeline.arrRef spec0 0)) (V c (Pipeline.arrRef spec0 1))

-- Tile t's feature rows are the array's rows from 128 t on and its weight block is the whole array.
theorem flushed0_2_eq (c : Dev nD) (t : Fin cfg0.N) :
    (dat0 (F := Ideal) V c).flushed 2 t = ((cfg0.win 2).blk t).view.read (Elt Ideal) (prod0 V c) := by
  show (cfg0.win 2).cut (grid0.coords t) ((dat0 V c).after 2 t) = _
  rw [after0_2]
  unfold out0_2
  rw [View.canon_unit_zero zero_off0, View.ld_unit_zero (S := S128x512) zero_off0, View.ld_unit_zero (S := S512x512) zero_off0]
  obtain ⟨e0, e1, e2, e3, e4, e5⟩ := tile_index0 t
  funext j
  refine (pay0_at _ _ _).trans ?_
  show _ = Cert.Spec.projAt _ _ _ _
  unfold Cert.Spec.projAt
  refine Finset.sum_congr rfl fun k _ => congrArg₂ (· * ·) ?_ ?_
  · exact congrArg (V c (Pipeline.arrRef spec0 0)) (Shape.idx_ext₂
      (by show _ * 128 + 1 * (j 0).val = _ * 128 + 1 * (j 0).val; omega) (by show _ * 512 + 1 * k.val = k.val; omega))
  · exact congrArg (V c (Pipeline.arrRef spec0 1)) (Shape.idx_ext₂
      (by show _ * 512 + 1 * k.val = k.val; omega) (by show _ * 512 + 1 * (j 1).val = _ * 512 + 1 * (j 1).val; omega))

-- Row r lies in the block of tile r / 128.
theorem tiles_cover0 (i : S9088x512.Idx) :
    ∃ t : Fin cfg0.N, (cfg0.win 2).flush t = true ∧ i ∈ ((cfg0.win 2).blk t).view.set := by
  have hi0 := idx2_lt0 i
  have hi1 := idx2_lt1 i
  have hN : cfg0.N = 71 := N_0
  obtain ⟨t, ht⟩ : ∃ t : Fin cfg0.N, t.val = (i 0).val / 128 := ⟨⟨(i 0).val / 128, by omega⟩, rfl⟩
  obtain ⟨-, -, -, -, e4, e5⟩ := tile_index0 t
  refine ⟨t, flush0_2 t, ?_⟩
  show i ∈ ((View.whole main_v93).slice ((cfg0.win 2).rect t)).set
  rw [View.set_slice_whole, Rect.mem_set_unit]
  refine Fin.forall_fin_two.mpr ⟨?_, ?_⟩
  · show _ * 128 ≤ _ ∧ _ < _ * 128 + 128; omega
  · show _ * 512 ≤ _ ∧ _ < _ * 512 + 512; omega

theorem arr0 (c : Dev nD) :
    ((dat0 (F := Ideal) V c).arrAt 2 cfg0.N : S9088x512.Idx → EReal)
      = Cert.Spec.projArr (V c (Pipeline.arrRef spec0 0)) (V c (Pipeline.arrRef spec0 1)) :=
  (dat0 V c).arrAt_eq_of_cover 2 (prod0 V c) (fun t _ => flushed0_2_eq V c t) tiles_cover0

end Cert.KernelIdeal.Hand

end
-- ==== Proof.KIVal1.lean ====
import proofs.«174456_j18270790877215_2_alg».proof.Proof.KIReg1
import proofs.«174456_j18270790877215_2_alg».proof.Proof.SpecArr
import Idealize.ShloMosaic.Lib.Pipeline.Value
import Idealize.ShloMosaic.Lib.StackMember
import Idealize.ShloMosaic.Lib.KernelVsHost

noncomputable section

namespace Cert.KernelIdeal.Hand

open Cert.KernelIdeal Cert.KernelIdeal.Gen
open Idealize.ShloMosaic Idealize.ShloMosaic.TcCoe Idealize.ShloMosaic.ValueIdx Idealize.ShloMosaic.StackMember
open Idealize.ShloMosaic.Pipeline (Dat)

-- A product into a zero accumulator is the plain sum over the contracted coordinate.
theorem pay1_mm {m k n : Nat} {φ₁ φ₂ : FTy} (A : FVec Ideal ⟨2, ![m, k]⟩ φ₁) (B : FVec Ideal ⟨2, ![k, n]⟩ φ₂) (r : Fin m) (q : Fin n) :
    matmul (DotDims.plain m k n) none A B (constant _ .f32 0x00000000#32) (ix2 r q) = ∑ c : Fin k, A (ix2 r c) * B (ix2 c q) :=
  (congrFun (matmul_zero_eq_dotGeneral _ _ A B) _).trans (dotGeneral_plain_apply _ A B r q)

-- Conversions are the identity on the extended reals, so the payload is the layer update of the arrays its blocks' entries come from.
theorem pay1_rows (G : Cert.Spec.Sh9088x9088.Idx → EReal) (X P : Cert.Spec.Sh9088x512.Idx → EReal) (A B : Cert.Spec.Sh512x512.Idx → EReal)
    (g : FVec Ideal S128x9088 .f32) (p : FVec Ideal S9088x512 .bf16) (x : FVec Ideal S128x512 .f32) (a b : FVec Ideal S512x512 .bf16)
    (r : Fin 128) (q : Fin 512) (R : Fin 9088) (Q : Fin 512)
    (hg : ∀ l, g (ix2 r l) = G (ix2 R l)) (hx : ∀ k, x (ix2 r k) = X (ix2 R k)) (hp : ∀ l k, p (ix2 l k) = P (ix2 l k))
    (ha : ∀ k, a (ix2 k q) = A (ix2 k Q)) (hb : ∀ k, b (ix2 k q) = B (ix2 k Q)) :
    k1_pay1 (F := Ideal) g p x a b (ix2 r q) = Cert.Spec.layerAt G X P A B R Q := by
  unfold k1_pay1 Cert.Spec.layerAt Cert.Spec.nbAt
  simp only [shapeCast_self, ← hg, ← hx, ← hp, ← ha, ← hb]
  have nb (k : Fin 512) := pay1_mm (truncf .bf16 g bitsLt_bf16_f32) p r k
  refine congrArg Cert.Spec.lrelu (congrArg₂ (· + ·) ((pay1_mm _ a r q).trans ?_) ((pay1_mm _ b r q).trans ?_))
  · exact Finset.sum_congr rfl fun k _ => congrArg (fun z => (x (ix2 r k) + z) * a (ix2 k q)) (nb k)
  · exact Finset.sum_congr rfl fun k _ => congrArg (fun z => (x (ix2 r k) * z) * b (ix2 k q)) (nb k)

variable (V : (c : Dev nD) → (b : Ref sig .tc) → Buf (Elt Ideal) ((c : Thread nD τ).loc b))

theorem zeros1 : (![0, 0] : Fin 2 → Nat) = fun _ => 0 := funext fun a => by fin_cases a <;> rfl

theorem index1 : ∀ t : Fin cfg1.N,
    (cfg1.win 0).index t (0 : Fin 2) = t.val ∧ (cfg1.win 0).index t (1 : Fin 2) = 0
    ∧ (cfg1.win 1).index t (0 : Fin 2) = t.val ∧ (cfg1.win 1).index t (1 : Fin 2) = 0
    ∧ (cfg1.win 2).index t (0 : Fin 2) = 0 ∧ (cfg1.win 2).index t (1 : Fin 2) = 0
    ∧ (cfg1.win 3).index t (0 : Fin 2) = 0 ∧ (cfg1.win 3).index t (1 : Fin 2) = 0
    ∧ (cfg1.win 4).index t (0 : Fin 2) = 0 ∧ (cfg1.win 4).index t (1 : Fin 2) = 0
    ∧ (cfg1.win 5).index t (0 : Fin 2) = t.val ∧ (cfg1.win 5).index t (1 : Fin 2) = 0 :=
  (by decide +kernel : ∀ t : Fin grid1.N, _)

abbrev layer1 (c : Dev nD) : S9088x512.Idx → EReal :=
  Cert.Spec.layerArr (V c (Pipeline.arrRef spec1 0)) (V c (Pipeline.arrRef spec1 1)) (V c (Pipeline.arrRef spec1 2))
    (V c (Pipeline.arrRef spec1 3)) (V c (Pipeline.arrRef spec1 4))

-- Tile t's adjacency and feature rows are the arrays' rows from 128 t on; the other three blocks are the whole arrays.
theorem flushed1_eq (c : Dev nD) (t : Fin cfg1.N) :
    (dat1 (F := Ideal) V c).flushed 5 t = ((cfg1.win 5).blk t).view.read (Elt Ideal) (layer1 V c) := by
  show (cfg1.win 5).cut (grid1.coords t) ((dat1 V c).after 5 t) = _
  rw [after1_5]
  unfold out1_5
  rw [View.canon_unit_zero zeros1]
  simp only [View.ld_unit_zero (S := S128x9088) zeros1, View.ld_unit_zero (S := S128x512) zeros1,
    View.ld_unit_zero (S := S9088x512) zeros1, View.ld_unit_zero (S := S512x512) zeros1]
  obtain ⟨e0, e1, e2, e3, e4, e5, e6, e7, e8, e9, e10, e11⟩ := index1 t
  funext y
  obtain ⟨r, q, rfl⟩ : ∃ (r : Fin 128) (q : Fin 512), y = ix2 r q := ⟨_, _, eq_ix2 y⟩
  exact pay1_rows _ _ _ _ _ _ _ _ _ _ r q _ _
    (fun l => congrArg (V c (Pipeline.arrRef spec1 0)) (Shape.idx_ext₂ (by show _ * 128 + 1 * r.val = (cfg1.win 5).index t 0 * 128 + 1 * r.val; omega) (by show _ * 9088 + 1 * l.val = l.val; omega)))
    (fun k => congrArg (V c (Pipeline.arrRef spec1 1)) (Shape.idx_ext₂ (by show _ * 128 + 1 * r.val = (cfg1.win 5).index t 0 * 128 + 1 * r.val; omega) (by show _ * 512 + 1 * k.val = k.val; omega)))
    (fun l k => congrArg (V c (Pipeline.arrRef spec1 2)) (Shape.idx_ext₂ (by show _ * 9088 + 1 * l.val = l.val; omega) (by show _ * 512 + 1 * k.val = k.val; omega)))
    (fun k => congrArg (V c (Pipeline.arrRef spec1 3)) (Shape.idx_ext₂ (by show _ * 512 + 1 * k.val = k.val; omega) (by show _ * 512 + 1 * q.val = (cfg1.win 5).index t 1 * 512 + 1 * q.val; omega)))
    (fun k => congrArg (V c (Pipeline.arrRef spec1 4)) (Shape.idx_ext₂ (by show _ * 512 + 1 * k.val = k.val; omega) (by show _ * 512 + 1 * q.val = (cfg1.win 5).index t 1 * 512 + 1 * q.val; omega)))

-- Row r lies in the block of tile r / 128.
theorem cover1 (i : S9088x512.Idx) : ∃ t : Fin cfg1.N, (cfg1.win 5).flush t = true ∧ i ∈ ((cfg1.win 5).blk t).view.set := by
  have hi0 := idx2_lt0 i
  have hi1 := idx2_lt1 i
  have hN : cfg1.N = 71 := N_1
  obtain ⟨t, ht⟩ : ∃ t : Fin cfg1.N, t.val = (i 0).val / 128 := ⟨⟨(i 0).val / 128, by omega⟩, rfl⟩
  obtain ⟨-, -, -, -, -, -, -, -, -, -, e0, e1⟩ := index1 t
  refine ⟨t, flush1_5 t, ?_⟩
  show i ∈ ((View.whole main_v94).slice ((cfg1.win 5).rect t)).set
  rw [View.set_slice_whole, Rect.mem_set_unit]
  refine Fin.forall_fin_two.mpr ⟨?_, ?_⟩
  · show _ * 128 ≤ _ ∧ _ < _ * 128 + 128; omega
  · show _ * 512 ≤ _ ∧ _ < _ * 512 + 512; omega

theorem arr1 (c : Dev nD) :
    ((dat1 (F := Ideal) V c).arrAt 5 cfg1.N : S9088x512.Idx → EReal)
      = Cert.Spec.layerArr (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 (layer1 V c) (fun t _ => flushed1_eq V c t) cover1

end Cert.KernelIdeal.Hand

end
-- ==== Proof.KIVal2.lean ====
import proofs.«174456_j18270790877215_2_alg».proof.Proof.KIReg2
import proofs.«174456_j18270790877215_2_alg».proof.Proof.SpecArr
import Idealize.ShloMosaic.Lib.Pipeline.Value
import Idealize.ShloMosaic.Lib.StackMember
import Idealize.ShloMosaic.Lib.KernelVsHost

noncomputable section

namespace Cert.KernelIdeal.Hand

open Cert.KernelIdeal Cert.KernelIdeal.Gen
open Idealize.ShloMosaic Idealize.ShloMosaic.TcCoe Idealize.ShloMosaic.ValueIdx Idealize.ShloMosaic.StackMember Idealize.SL.Sem
open Idealize.ShloMosaic.Pipeline (Dat)

-- Conversions are the identity on the extended reals and a product into a zero accumulator is the plain sum.
theorem pay2_at (x0 : FVec Ideal S128x512 .f32) (x1 : FVec Ideal S512x512 .bf16) (y : S128x512.Idx) :
    k2_pay1 (F := Ideal) x0 x1 y = ∑ k : Fin 512, x0 (ix2 (y 0) k) * x1 (ix2 k (y 1)) := by
  obtain ⟨r, q, rfl⟩ : ∃ (r : Fin 128) (q : Fin 512), y = ix2 r q := ⟨_, _, eq_ix2 y⟩
  unfold k2_pay1
  simp only [shapeCast_self, truncf_apply]
  exact (congrFun (matmul_zero_eq_dotGeneral (DotDims.plain 128 512 512) none _ x1) _).trans (dotGeneral_plain_apply none _ x1 r q)

variable (V : (c : Dev nD) → (b : Ref sig .tc) → Buf (Elt Ideal) ((c : Thread nD τ).loc b))

theorem zero_off2 : (![0, 0] : Fin 2 → Nat) = fun _ => 0 := funext fun a => by fin_cases a <;> rfl

theorem tile_index2 : ∀ t : Fin cfg2.N, (cfg2.win 0).index t (0 : Fin 2) = t.val ∧ (cfg2.win 0).index t (1 : Fin 2) = 0
    ∧ (cfg2.win 1).index t (0 : Fin 2) = 0 ∧ (cfg2.win 1).index t (1 : Fin 2) = 0
    ∧ (cfg2.win 2).index t (0 : Fin 2) = t.val ∧ (cfg2.win 2).index t (1 : Fin 2) = 0 :=
  (by decide +kernel : ∀ t : Fin grid2.N, _)

abbrev prod2 (c : Dev nD) : S9088x512.Idx → EReal :=
  Cert.Spec.projArr (V c (Pipeline.arrRef spec2 0)) (V c (Pipeline.arrRef spec2 1))

-- Tile t's feature rows are the array's rows from 128 t on and its weight block is the whole array.
theorem flushed2_2_eq (c : Dev nD) (t : Fin cfg2.N) :
    (dat2 (F := Ideal) V c).flushed 2 t = ((cfg2.win 2).blk t).view.read (Elt Ideal) (prod2 V c) := by
  show (cfg2.win 2).cut (grid2.coords t) ((dat2 V c).after 2 t) = _
  rw [after2_2]
  unfold out2_2
  rw [View.canon_unit_zero zero_off2, View.ld_unit_zero (S := S128x512) zero_off2, View.ld_unit_zero (S := S512x512) zero_off2]
  obtain ⟨e0, e1, e2, e3, e4, e5⟩ := tile_index2 t
  funext j
  refine (pay2_at _ _ _).trans ?_
  show _ = Cert.Spec.projAt _ _ _ _
  unfold Cert.Spec.projAt
  refine Finset.sum_congr rfl fun k _ => congrArg₂ (· * ·) ?_ ?_
  · exact congrArg (V c (Pipeline.arrRef spec2 0)) (Shape.idx_ext₂
      (by show _ * 128 + 1 * (j 0).val = _ * 128 + 1 * (j 0).val; omega) (by show _ * 512 + 1 * k.val = k.val; omega))
  · exact congrArg (V c (Pipeline.arrRef spec2 1)) (Shape.idx_ext₂
      (by show _ * 512 + 1 * k.val = k.val; omega) (by show _ * 512 + 1 * (j 1).val = _ * 512 + 1 * (j 1).val; omega))

-- Row r lies in the block of tile r / 128.
theorem tiles_cover2 (i : S9088x512.Idx) :
    ∃ t : Fin cfg2.N, (cfg2.win 2).flush t = true ∧ i ∈ ((cfg2.win 2).blk t).view.set := by
  have hi0 := idx2_lt0 i
  have hi1 := idx2_lt1 i
  have hN : cfg2.N = 71 := N_2
  obtain ⟨t, ht⟩ : ∃ t : Fin cfg2.N, t.val = (i 0).val / 128 := ⟨⟨(i 0).val / 128, by omega⟩, rfl⟩
  obtain ⟨-, -, -, -, e4, e5⟩ := tile_index2 t
  refine ⟨t, flush2_2 t, ?_⟩
  show i ∈ ((View.whole main_v103).slice ((cfg2.win 2).rect t)).set
  rw [View.set_slice_whole, Rect.mem_set_unit]
  refine Fin.forall_fin_two.mpr ⟨?_, ?_⟩
  · show _ * 128 ≤ _ ∧ _ < _ * 128 + 128; omega
  · show _ * 512 ≤ _ ∧ _ < _ * 512 + 512; omega

theorem arr2 (c : Dev nD) :
    ((dat2 (F := Ideal) V c).arrAt 2 cfg2.N : S9088x512.Idx → EReal)
      = Cert.Spec.projArr (V c (Pipeline.arrRef spec2 0)) (V c (Pipeline.arrRef spec2 1)) :=
  (dat2 V c).arrAt_eq_of_cover 2 (prod2 V c) (fun t _ => flushed2_2_eq V c t) tiles_cover2

end Cert.KernelIdeal.Hand

end
-- ==== Proof.KIVal3.lean ====
import proofs.«174456_j18270790877215_2_alg».proof.Proof.KIReg3
import proofs.«174456_j18270790877215_2_alg».proof.Proof.SpecArr
import Idealize.ShloMosaic.Lib.Pipeline.Value
import Idealize.ShloMosaic.Lib.StackMember
import Idealize.ShloMosaic.Lib.KernelVsHost

noncomputable section

namespace Cert.KernelIdeal.Hand

open Cert.KernelIdeal Cert.KernelIdeal.Gen
open Idealize.ShloMosaic Idealize.ShloMosaic.TcCoe Idealize.ShloMosaic.ValueIdx Idealize.ShloMosaic.StackMember
open Idealize.ShloMosaic.Pipeline (Dat)

-- A product into a zero accumulator is the plain sum over the contracted coordinate.
theorem pay3_mm {m k n : Nat} {φ₁ φ₂ : FTy} (A : FVec Ideal ⟨2, ![m, k]⟩ φ₁) (B : FVec Ideal ⟨2, ![k, n]⟩ φ₂) (r : Fin m) (q : Fin n) :
    matmul (DotDims.plain m k n) none A B (constant _ .f32 0x00000000#32) (ix2 r q) = ∑ c : Fin k, A (ix2 r c) * B (ix2 c q) :=
  (congrFun (matmul_zero_eq_dotGeneral _ _ A B) _).trans (dotGeneral_plain_apply _ A B r q)

-- Conversions are the identity on the extended reals, so the payload is the layer update of the arrays its blocks' entries come from.
theorem pay3_rows (G : Cert.Spec.Sh9088x9088.Idx → EReal) (X P : Cert.Spec.Sh9088x512.Idx → EReal) (A B : Cert.Spec.Sh512x512.Idx → EReal)
    (g : FVec Ideal S128x9088 .f32) (p : FVec Ideal S9088x512 .bf16) (x : FVec Ideal S128x512 .f32) (a b : FVec Ideal S512x512 .bf16)
    (r : Fin 128) (q : Fin 512) (R : Fin 9088) (Q : Fin 512)
    (hg : ∀ l, g (ix2 r l) = G (ix2 R l)) (hx : ∀ k, x (ix2 r k) = X (ix2 R k)) (hp : ∀ l k, p (ix2 l k) = P (ix2 l k))
    (ha : ∀ k, a (ix2 k q) = A (ix2 k Q)) (hb : ∀ k, b (ix2 k q) = B (ix2 k Q)) :
    k3_pay1 (F := Ideal) g p x a b (ix2 r q) = Cert.Spec.layerAt G X P A B R Q := by
  unfold k3_pay1 Cert.Spec.layerAt Cert.Spec.nbAt
  simp only [shapeCast_self, ← hg, ← hx, ← hp, ← ha, ← hb]
  have nb (k : Fin 512) := pay3_mm (truncf .bf16 g bitsLt_bf16_f32) p r k
  refine congrArg Cert.Spec.lrelu (congrArg₂ (· + ·) ((pay3_mm _ a r q).trans ?_) ((pay3_mm _ b r q).trans ?_))
  · exact Finset.sum_congr rfl fun k _ => congrArg (fun z => (x (ix2 r k) + z) * a (ix2 k q)) (nb k)
  · exact Finset.sum_congr rfl fun k _ => congrArg (fun z => (x (ix2 r k) * z) * b (ix2 k q)) (nb k)

variable (V : (c : Dev nD) → (b : Ref sig .tc) → Buf (Elt Ideal) ((c : Thread nD τ).loc b))

theorem zeros3 : (![0, 0] : Fin 2 → Nat) = fun _ => 0 := funext fun a => by fin_cases a <;> rfl

theorem index3 : ∀ t : Fin cfg3.N,
    (cfg3.win 0).index t (0 : Fin 2) = t.val ∧ (cfg3.win 0).index t (1 : Fin 2) = 0
    ∧ (cfg3.win 1).index t (0 : Fin 2) = t.val ∧ (cfg3.win 1).index t (1 : Fin 2) = 0
    ∧ (cfg3.win 2).index t (0 : Fin 2) = 0 ∧ (cfg3.win 2).index t (1 : Fin 2) = 0
    ∧ (cfg3.win 3).index t (0 : Fin 2) = 0 ∧ (cfg3.win 3).index t (1 : Fin 2) = 0
    ∧ (cfg3.win 4).index t (0 : Fin 2) = 0 ∧ (cfg3.win 4).index t (1 : Fin 2) = 0
    ∧ (cfg3.win 5).index t (0 : Fin 2) = t.val ∧ (cfg3.win 5).index t (1 : Fin 2) = 0 :=
  (by decide +kernel : ∀ t : Fin grid3.N, _)

abbrev layer3 (c : Dev nD) : S9088x512.Idx → EReal :=
  Cert.Spec.layerArr (V c (Pipeline.arrRef spec3 0)) (V c (Pipeline.arrRef spec3 1)) (V c (Pipeline.arrRef spec3 2))
    (V c (Pipeline.arrRef spec3 3)) (V c (Pipeline.arrRef spec3 4))

-- Tile t's adjacency and feature rows are the arrays' rows from 128 t on; the other three blocks are the whole arrays.
theorem flushed3_eq (c : Dev nD) (t : Fin cfg3.N) :
    (dat3 (F := Ideal) V c).flushed 5 t = ((cfg3.win 5).blk t).view.read (Elt Ideal) (layer3 V c) := by
  show (cfg3.win 5).cut (grid3.coords t) ((dat3 V c).after 5 t) = _
  rw [after3_5]
  unfold out3_5
  rw [View.canon_unit_zero zeros3]
  simp only [View.ld_unit_zero (S := S128x9088) zeros3, View.ld_unit_zero (S := S128x512) zeros3,
    View.ld_unit_zero (S := S9088x512) zeros3, View.ld_unit_zero (S := S512x512) zeros3]
  obtain ⟨e0, e1, e2, e3, e4, e5, e6, e7, e8, e9, e10, e11⟩ := index3 t
  funext y
  obtain ⟨r, q, rfl⟩ : ∃ (r : Fin 128) (q : Fin 512), y = ix2 r q := ⟨_, _, eq_ix2 y⟩
  exact pay3_rows _ _ _ _ _ _ _ _ _ _ r q _ _
    (fun l => congrArg (V c (Pipeline.arrRef spec3 0)) (Shape.idx_ext₂ (by show _ * 128 + 1 * r.val = (cfg3.win 5).index t 0 * 128 + 1 * r.val; omega) (by show _ * 9088 + 1 * l.val = l.val; omega)))
    (fun k => congrArg (V c (Pipeline.arrRef spec3 1)) (Shape.idx_ext₂ (by show _ * 128 + 1 * r.val = (cfg3.win 5).index t 0 * 128 + 1 * r.val; omega) (by show _ * 512 + 1 * k.val = k.val; omega)))
    (fun l k => congrArg (V c (Pipeline.arrRef spec3 2)) (Shape.idx_ext₂ (by show _ * 9088 + 1 * l.val = l.val; omega) (by show _ * 512 + 1 * k.val = k.val; omega)))
    (fun k => congrArg (V c (Pipeline.arrRef spec3 3)) (Shape.idx_ext₂ (by show _ * 512 + 1 * k.val = k.val; omega) (by show _ * 512 + 1 * q.val = (cfg3.win 5).index t 1 * 512 + 1 * q.val; omega)))
    (fun k => congrArg (V c (Pipeline.arrRef spec3 4)) (Shape.idx_ext₂ (by show _ * 512 + 1 * k.val = k.val; omega) (by show _ * 512 + 1 * q.val = (cfg3.win 5).index t 1 * 512 + 1 * q.val; omega)))

-- Row r lies in the block of tile r / 128.
theorem cover3 (i : S9088x512.Idx) : ∃ t : Fin cfg3.N, (cfg3.win 5).flush t = true ∧ i ∈ ((cfg3.win 5).blk t).view.set := by
  have hi0 := idx2_lt0 i
  have hi1 := idx2_lt1 i
  have hN : cfg3.N = 71 := N_3
  obtain ⟨t, ht⟩ : ∃ t : Fin cfg3.N, t.val = (i 0).val / 128 := ⟨⟨(i 0).val / 128, by omega⟩, rfl⟩
  obtain ⟨-, -, -, -, -, -, -, -, -, -, e0, e1⟩ := index3 t
  refine ⟨t, flush3_5 t, ?_⟩
  show i ∈ ((View.whole main_v104).slice ((cfg3.win 5).rect t)).set
  rw [View.set_slice_whole, Rect.mem_set_unit]
  refine Fin.forall_fin_two.mpr ⟨?_, ?_⟩
  · show _ * 128 ≤ _ ∧ _ < _ * 128 + 128; omega
  · show _ * 512 ≤ _ ∧ _ < _ * 512 + 512; omega

theorem arr3 (c : Dev nD) :
    ((dat3 (F := Ideal) V c).arrAt 5 cfg3.N : S9088x512.Idx → EReal)
      = Cert.Spec.layerArr (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5 (layer3 V c) (fun t _ => flushed3_eq V c t) cover3

end Cert.KernelIdeal.Hand

end
-- ==== Proof.KIVal.lean ====
import proofs.«174456_j18270790877215_2_alg».proof.Proof.KIArgs
import proofs.«174456_j18270790877215_2_alg».proof.Proof.KIHost
import proofs.«174456_j18270790877215_2_alg».proof.Proof.KIVal0
import proofs.«174456_j18270790877215_2_alg».proof.Proof.KIVal1
import proofs.«174456_j18270790877215_2_alg».proof.Proof.KIVal2
import proofs.«174456_j18270790877215_2_alg».proof.Proof.KIVal3

namespace Cert.KernelIdeal.Hand

open Cert.KernelIdeal
open Idealize.ShloMosaic Idealize.ShloMosaic.TcCoe

variable (m : (ℓ : Loc nD τ sig) → Buf (Elt Ideal) ℓ) (c : Dev nD)

theorem B10_v84 : B10 m c main_v84 = B9 m c main_v84 :=
  (B10_arr m c 0).trans <| ((dat0 (Vr (B9 m)) c).arrAt_in 0 rfl cfg0.N).trans (A_eq0 (Vr (B9 m)) c 0)
theorem B11_v83 : B11 m c main_v83 = B10 m c main_v83 :=
  (B11_arr m c 0).trans <| ((dat1 (Vr (B10 m)) c).arrAt_in 0 rfl cfg1.N).trans (A_eq1 (Vr (B10 m)) c 0)
theorem B13_v94 : B13 m c main_v94 = B12 m c main_v94 :=
  (B13_arr m c 0).trans <| ((dat2 (Vr (B12 m)) c).arrAt_in 0 rfl cfg2.N).trans (A_eq2 (Vr (B12 m)) c 0)

theorem V8_arg (r : Ref sig .tc) (h : r ∉ Gen.hostOps0_W ∧ r ∉ Gen.hostOps0_1_W ∧ r ∉ Gen.hostOps0_2_W ∧ r ∉ Gen.hostOps0_3_W
    ∧ r ∉ Gen.hostOps0_4_W ∧ r ∉ Gen.hostOps0_5_W ∧ r ∉ Gen.hostOps0_6_W ∧ r ∉ Gen.hostOps0_7_W) : Gen.V8 m c r = m ((c : Thread nD τ).loc r) :=
  let ⟨h0, h1, h2, h3, h4, h5, h6, h7⟩ := h
  (Gen.V8_of m c r h7).trans <| (Gen.V7_of m c r h6).trans <| (Gen.V6_of m c r h5).trans <| (Gen.V5_of m c r h4).trans <|
  (Gen.V4_of m c r h3).trans <| (Gen.V3_of m c r h2).trans <| (Gen.V2_of m c r h1).trans <| (Gen.V1_of m c r h0).trans rfl

variable (ρ : Dev nD → PrngReg)

theorem run : θ_run defs (onTc (τ := τ) (main (F := Ideal))) ⟨m, fun _ => 0, ρ⟩ (fun r => ∀ c : Dev nD,
      r.2.mem ((c.tc : Thread nD τ).loc main_v105) = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r h c => ?_) (run_all m ρ)
  have g := fun (b : Ref sig .tc) hb => h c b (Finset.mem_filter.mpr ⟨StableHlo.devRef_mem_tcRefs b, hb⟩)
  have h0 : B10 m c main_v93 = Cert.Spec.projArr (B9 m c main_v84) (B9 m c main_v86) := (B10_arr m c 2).trans (arr0 (Vr (B9 m)) c)
  have h1 : B11 m c main_v94 = Cert.Spec.layerArr (B10 m c main_v83) (B10 m c main_v84) (B10 m c main_v93) (B10 m c main_v89) (B10 m c main_v92) :=
    (B11_arr m c 5).trans (arr1 (Vr (B10 m)) c)
  rw [h0, B10_v84 m c, B10_of_ne m c main_v83 (by decide), B10_of_ne m c main_v89 (by decide), B10_of_ne m c main_v92 (by decide),
    B9_v83 m c, B9_v84 m c, show B9 m c main_v86 = _ from S8_v86 _, show B9 m c main_v89 = _ from S8_v89 _, show B9 m c main_v92 = _ from S8_v92 _,
    V8_arg m c main_arg9 (by decide), V8_arg m c main_arg10 (by decide)] at h1
  have h2 : B13 m c main_v103 = Cert.Spec.projArr (B12 m c main_v94) (B12 m c main_v96) := (B13_arr m c 2).trans (arr2 (Vr (B12 m)) c)
  have h3 : B14 m c main_v104 = Cert.Spec.layerArr (B13 m c main_v83) (B13 m c main_v94) (B13 m c main_v103) (B13 m c main_v99) (B13 m c main_v102) :=
    (B14_arr m c 5).trans (arr3 (Vr (B13 m)) c)
  rw [h2, B13_v94 m c, B13_of_ne m c main_v83 (by decide), B13_of_ne m c main_v99 (by decide), B13_of_ne m c main_v102 (by decide),
    show B12 m c main_v94 = B11 m c main_v94 from StableHlo.after_of_writes_sub Gen.hostOps2 _ Gen.hostOps2_writes (by decide), h1,
    show B12 m c main_v83 = B11 m c main_v83 from StableHlo.after_of_writes_sub Gen.hostOps2 _ Gen.hostOps2_writes (by decide), B11_v83 m c, B10_of_ne m c main_v83 (by decide), B9_v83 m c,
    show B12 m c main_v96 = _ from S11_v96 _, show B12 m c main_v99 = _ from S11_v99 _, show B12 m c main_v102 = _ from S11_v102 _,
    (B11_of_ne m c main_arg11 (by decide)).trans <| (B10_of_ne m c main_arg11 (by decide)).trans <| (Gen.V9_of m c main_arg11 (by decide)).trans (V8_arg m c main_arg11 (by decide)),
    (B11_of_ne m c main_arg12 (by decide)).trans <| (B10_of_ne m c main_arg12 (by decide)).trans <| (Gen.V9_of m c main_arg12 (by decide)).trans (V8_arg m c main_arg12 (by decide))] at h3
  exact ⟨(g main_v105 (by decide)).trans <| (S14_v105 _).trans (by rw [h3]; rfl),
    arg_kept m c main_arg0 (h c),
    arg_kept m c main_arg1 (h c),
    arg_kept m c main_arg2 (h c),
    arg_kept m c main_arg3 (h c),
    arg_kept m c main_arg4 (h c),
    arg_kept m c main_arg5 (h c),
    arg_kept m c main_arg6 (h c),
    arg_kept m c main_arg7 (h c),
    arg_kept m c main_arg8 (h c),
    arg_kept m c main_arg9 (h c),
    arg_kept m c main_arg10 (h c),
    arg_kept m c main_arg11 (h c),
    arg_kept m c main_arg12 (h c)⟩

end Cert.KernelIdeal.Hand
-- ==== Proof.RefRunOps.lean ====
import proofs.«174456_j18270790877215_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def t0 : List (HloOp τ sig (Elt F)) :=
  [ StableHlo.nary ![main_arg0, main_arg1, main_arg2] main_v0 (fun u => concatenate S9000x512 0 [⟨S3000x512, u 0⟩, ⟨S3000x512, u 1⟩, ⟨S3000x512, u 2⟩] concatenates_S3000x512_S3000x512_S3000x512_S9000x512_d0),
    StableHlo.unary main_arg3 main_v1 (extractStridedSlice S1x200000 ![0, 0] · slices_S2x200000_S1x200000_0_0),
    StableHlo.reshape main_v1 main_v2 rfl shapeCasts_S1x200000_S200000,
    StableHlo.unary main_arg3 main_v3 (extractStridedSlice S1x200000 ![1, 0] · slices_S2x200000_S1x200000_1_0),
    StableHlo.reshape main_v3 main_v4 rfl shapeCasts_S1x200000_S200000,
    StableHlo.nullary main_c (constantI S_ 32 0#32),
    StableHlo.unary main_c main_v5 (broadcastInDim S200000 ![] bcast_S_S200000),
    StableHlo.binary main_v2 main_v5 main_v6 (cmpi .slt),
    StableHlo.nullary main_c_0 (constantI S_ 32 9000#32),
    StableHlo.unary main_c_0 main_v7 (broadcastInDim S200000 ![] bcast_S_S200000),
    StableHlo.binary main_v2 main_v7 main_v8 addi,
    StableHlo.ternary main_v6 main_v8 main_v2 main_v9 select,
    StableHlo.unary main_v9 main_v10 (broadcastInDim S200000x1 ![0] bcast_S200000_S200000x1_0),
    StableHlo.binary main_v0 main_v10 main_v11 (fun x i => Host.gather gather_S9000x512_S200000x1_S200000x512_1_0_n_n_0_1_1512 x i),
    StableHlo.unary main_arg4 main_v12 (transpose S512x128 [1, 0] · transposes_S128x512_S512x128_1_0),
    StableHlo.binary main_v11 main_v12 main_v13 (fun l r => Host.dotGeneral dot_S200000x512_S512x128_S200000x128_1_0_0_1_n_n none l r) ]

def t1 : List (HloOp τ sig (Elt F)) :=
  [ StableHlo.TRef.binary (.of main_v13 : TRef sig ⟨S200000x128, .f32⟩) (.of main_v13 : TRef sig ⟨S200000x128, .f32⟩) main_call0.v0 mulf,
    StableHlo.TRef.nullary main_call0.cst (constant S_ .f32 0x00000000#32),
    StableHlo.TRef.binary main_call0.v0 main_call0.cst main_call0.v1 (fun x v => Host.reduceAdd x v reducesTo_S200000x128_S200000_d1 h_S_),
    StableHlo.TRef.unary main_call0.v1 main_call0.v2 (broadcastInDim S200000x1 ![0] bcast_S200000_S200000x1_0),
    StableHlo.TRef.unary main_call0.v2 main_call0.v3 Host.sqrt,
    StableHlo.nullary main_cst (constant S_ .f32 0x2B8CBCCC#32),
    StableHlo.unary main_cst main_v15 (broadcastInDim S200000x1 ![] bcast_S_S200000x1),
    StableHlo.binary main_v14 main_v15 main_v16 maximumf,
    StableHlo.unary main_v16 main_v17 (broadcastInDim S200000x128 ![0, 1] bcast_S200000x1_S200000x128_0_1),
    StableHlo.binary main_v13 main_v17 main_v18 Host.divf ]

def t2 : List (HloOp τ sig (Elt F)) :=
  [ StableHlo.nullary main_c_1 (constantI S_ 32 0#32),
    StableHlo.unary main_c_1 main_v19 (broadcastInDim S200000 ![] bcast_S_S200000),
    StableHlo.binary main_v4 main_v19 main_v20 (cmpi .slt),
    StableHlo.nullary main_c_2 (constantI S_ 32 9000#32),
    StableHlo.unary main_c_2 main_v21 (broadcastInDim S200000 ![] bcast_S_S200000),
    StableHlo.binary main_v4 main_v21 main_v22 addi,
    StableHlo.ternary main_v20 main_v22 main_v4 main_v23 select,
    StableHlo.unary main_v23 main_v24 (broadcastInDim S200000x1 ![0] bcast_S200000_S200000x1_0),
    StableHlo.binary main_v0 main_v24 main_v25 (fun x i => Host.gather gather_S9000x512_S200000x1_S200000x512_1_0_n_n_0_1_1512 x i),
    StableHlo.unary main_arg4 main_v26 (transpose S512x128 [1, 0] · transposes_S128x512_S512x128_1_0),
    StableHlo.binary main_v25 main_v26 main_v27 (fun l r => Host.dotGeneral dot_S200000x512_S512x128_S200000x128_1_0_0_1_n_n none l r) ]

def t3 : List (HloOp τ sig (Elt F)) :=
  [ StableHlo.TRef.binary (.of main_v27 : TRef sig ⟨S200000x128, .f32⟩) (.of main_v27 : TRef sig ⟨S200000x128, .f32⟩) main_call1.v0 mulf,
    StableHlo.TRef.nullary main_call1.cst (constant S_ .f32 0x00000000#32),
    StableHlo.TRef.binary main_call1.v0 main_call1.cst main_call1.v1 (fun x v => Host.reduceAdd x v reducesTo_S200000x128_S200000_d1 h_S_),
    StableHlo.TRef.unary main_call1.v1 main_call1.v2 (broadcastInDim S200000x1 ![0] bcast_S200000_S200000x1_0),
    StableHlo.TRef.unary main_call1.v2 main_call1.v3 Host.sqrt,
    StableHlo.nullary main_cst_3 (constant S_ .f32 0x2B8CBCCC#32),
    StableHlo.unary main_cst_3 main_v29 (broadcastInDim S200000x1 ![] bcast_S_S200000x1),
    StableHlo.binary main_v28 main_v29 main_v30 maximumf,
    StableHlo.unary main_v30 main_v31 (broadcastInDim S200000x128 ![0, 1] bcast_S200000x1_S200000x128_0_1),
    StableHlo.binary main_v27 main_v31 main_v32 Host.divf ]

def t4 : List (HloOp τ sig (Elt F)) :=
  [ StableHlo.binary main_v18 main_v32 main_v33 (fun a b => concatenate S200000x256 1 [⟨S200000x128, a⟩, ⟨S200000x128, b⟩] concatenates_S200000x128_S200000x128_S200000x256_d1),
    StableHlo.unary main_arg5 main_v34 (transpose S256x128 [1, 0] · transposes_S128x256_S256x128_1_0),
    StableHlo.binary main_v33 main_v34 main_v35 (fun l r => Host.dotGeneral dot_S200000x256_S256x128_S200000x128_1_0_0_1_n_n none l r),
    StableHlo.unary main_arg6 main_v36 (broadcastInDim S1x128 ![1] bcast_S128_S1x128_1),
    StableHlo.unary main_v36 main_v37 (broadcastInDim S200000x128 ![0, 1] bcast_S1x128_S200000x128_0_1),
    StableHlo.binary main_v35 main_v37 main_v38 addf,
    StableHlo.nullary main_cst_4 (constant S_ .f32 0x3C23D70A#32),
    StableHlo.TRef.nullary main_call2.cst (constant S_ .f32 0x00000000#32),
    StableHlo.TRef.unary main_call2.cst main_call2.v0 (broadcastInDim S200000x128 ![] bcast_S_S200000x128),
    StableHlo.TRef.binary (.of main_v38 : TRef sig ⟨S200000x128, .f32⟩) main_call2.v0 main_call2.v1 (cmpf .oge),
    StableHlo.TRef.unary (.of main_cst_4 : TRef sig ⟨S_, .f32⟩) main_call2.v2 id,
    StableHlo.TRef.unary main_call2.v2 main_call2.v3 (broadcastInDim S200000x128 ![] bcast_S_S200000x128),
    StableHlo.TRef.binary main_call2.v3 (.of main_v38 : TRef sig ⟨S200000x128, .f32⟩) main_call2.v4 mulf,
    StableHlo.TRef.ternary main_call2.v1 (.of main_v38 : TRef sig ⟨S200000x128, .f32⟩) main_call2.v4 main_call2.call0.v0 select ]

def t5 : List (HloOp τ sig (Elt F)) :=
  [ StableHlo.unary main_arg7 main_v40 (transpose S128x1 [1, 0] · transposes_S1x128_S128x1_1_0),
    StableHlo.binary main_v39 main_v40 main_v41 (fun l r => Host.dotGeneral dot_S200000x128_S128x1_S200000x1_1_0_0_1_n_n none l r),
    StableHlo.unary main_arg8 main_v42 (broadcastInDim S1x1 ![1] bcast_S1_S1x1_1),
    StableHlo.unary main_v42 main_v43 (broadcastInDim S200000x1 ![0, 1] bcast_S1x1_S200000x1_0_1),
    StableHlo.binary main_v41 main_v43 main_v44 addf,
    StableHlo.reshape main_v44 main_v45 rfl shapeCasts_S200000x1_S200000,
    StableHlo.unary main_v45 main_v46 Host.negf,
    StableHlo.unary main_v46 main_v47 Host.exp,
    StableHlo.nullary main_cst_5 (constant S_ .f32 0x3F800000#32),
    StableHlo.unary main_cst_5 main_v48 (broadcastInDim S200000 ![] bcast_S_S200000),
    StableHlo.binary main_v48 main_v47 main_v49 addf,
    StableHlo.nullary main_cst_6 (constant S_ .f32 0x3F800000#32),
    StableHlo.unary main_cst_6 main_v50 (broadcastInDim S200000 ![] bcast_S_S200000),
    StableHlo.binary main_v50 main_v49 main_v51 Host.divf ]

def t6 : List (HloOp τ sig (Elt F)) :=
  [ StableHlo.nullary main_cst_7 (constant S_ .f32 0x00000000#32),
    StableHlo.unary main_cst_7 main_v52 (broadcastInDim S9000x9000 ![] bcast_S_S9000x9000),
    StableHlo.nullary main_c_8 (constantI S_ 32 0#32),
    StableHlo.unary main_c_8 main_v53 (broadcastInDim S200000 ![] bcast_S_S200000),
    StableHlo.binary main_v2 main_v53 main_v54 (cmpi .slt),
    StableHlo.nullary main_c_9 (constantI S_ 32 9000#32),
    StableHlo.unary main_c_9 main_v55 (broadcastInDim S200000 ![] bcast_S_S200000),
    StableHlo.binary main_v2 main_v55 main_v56 addi,
    StableHlo.ternary main_v54 main_v56 main_v2 main_v57 select,
    StableHlo.nullary main_c_10 (constantI S_ 32 0#32),
    StableHlo.unary main_c_10 main_v58 (broadcastInDim S200000 ![] bcast_S_S200000),
    StableHlo.binary main_v4 main_v58 main_v59 (cmpi .slt),
    StableHlo.nullary main_c_11 (constantI S_ 32 9000#32),
    StableHlo.unary main_c_11 main_v60 (broadcastInDim S200000 ![] bcast_S_S200000),
    StableHlo.binary main_v4 main_v60 main_v61 addi,
    StableHlo.ternary main_v59 main_v61 main_v4 main_v62 select,
    StableHlo.unary main_v57 main_v63 (broadcastInDim S200000x1 ![0] bcast_S200000_S200000x1_0),
    StableHlo.unary main_v62 main_v64 (broadcastInDim S200000x1 ![0] bcast_S200000_S200000x1_0),
    StableHlo.binary main_v63 main_v64 main_v65 (fun a b => concatenate S200000x2 1 [⟨S200000x1, a⟩, ⟨S200000x1, b⟩] concatenates_S200000x1_S200000x1_S200000x2_d1),
    StableHlo.ternary main_v52 main_v65 main_v51 main_v66 (fun x i u => Host.scatterAdd scatter_S9000x9000_S200000x2_S200000_n_01_01_1 x i u) ]

def t7 : List (HloOp τ sig (Elt F)) :=
  [ StableHlo.nullary main_cst_12 (constant S_ .f32 0x00000000#32),
    StableHlo.binary main_v66 main_cst_12 main_v67 (fun x v => Host.reduceAdd x v reducesTo_S9000x9000_S9000_d1 h_S_),
    StableHlo.nullary main_cst_13 (constant S_ .f32 0x00000000#32),
    StableHlo.unary main_cst_13 main_v68 (broadcastInDim S9000 ![] bcast_S_S9000),
    StableHlo.binary main_v67 main_v68 main_v69 (cmpf .ogt),
    StableHlo.nullary main_cst_14 (constant S_ .f32 0xBF000000#32),
    StableHlo.unary main_cst_14 main_v70 (broadcastInDim S9000 ![] bcast_S_S9000),
    StableHlo.binary main_v67 main_v70 main_v71 Host.powf,
    StableHlo.nullary main_cst_15 (constant S_ .f32 0x00000000#32),
    StableHlo.TRef.unary (.of main_cst_15 : TRef sig ⟨S_, .f32⟩) main_call3.v0 id,
    StableHlo.TRef.unary main_call3.v0 main_call3.v1 (broadcastInDim S9000 ![] bcast_S_S9000),
    StableHlo.TRef.ternary (.of main_v69 : TRef sig ⟨S9000, .i1⟩) (.of main_v71 : TRef sig ⟨S9000, .f32⟩) main_call3.v1 main_call3.v2 select,
    StableHlo.unary main_v72 main_v73 (broadcastInDim S9000x1 ![0] bcast_S9000_S9000x1_0),
    StableHlo.unary main_v73 main_v74 (broadcastInDim S9000x9000 ![0, 1] bcast_S9000x1_S9000x9000_0_1),
    StableHlo.binary main_v74 main_v66 main_v75 mulf,
    StableHlo.unary main_v72 main_v76 (broadcastInDim S1x9000 ![1] bcast_S9000_S1x9000_1),
    StableHlo.unary main_v76 main_v77 (broadcastInDim S9000x9000 ![0, 1] bcast_S1x9000_S9000x9000_0_1),
    StableHlo.binary main_v75 main_v77 main_v78 mulf ]

def t8 : List (HloOp τ sig (Elt F)) :=
  [ StableHlo.unary main_arg9 main_v79 (transpose S512x512 [1, 0] · transposes_S512x512_S512x512_1_0),
    StableHlo.binary main_v0 main_v79 main_v80 (fun l r => Host.dotGeneral dot_S9000x512_S512x512_S9000x512_1_0_0_1_n_n none l r),
    StableHlo.binary main_v78 main_v80 main_v81 (fun l r => Host.dotGeneral dot_S9000x9000_S9000x512_S9000x512_1_0_0_1_n_n none l r),
    StableHlo.binary main_v0 main_v81 main_v82 addf,
    StableHlo.binary main_v0 main_v81 main_v83 mulf,
    StableHlo.binary main_v82 main_v83 main_v84 (fun a b => concatenate S9000x1024 1 [⟨S9000x512, a⟩, ⟨S9000x512, b⟩] concatenates_S9000x512_S9000x512_S9000x1024_d1),
    StableHlo.unary main_arg10 main_v85 (transpose S1024x512 [1, 0] · transposes_S512x1024_S1024x512_1_0),
    StableHlo.binary main_v84 main_v85 main_v86 (fun l r => Host.dotGeneral dot_S9000x1024_S1024x512_S9000x512_1_0_0_1_n_n none l r),
    StableHlo.nullary main_cst_16 (constant S_ .f32 0x3C23D70A#32),
    StableHlo.TRef.nullary main_call4.cst (constant S_ .f32 0x00000000#32),
    StableHlo.TRef.unary main_call4.cst main_call4.v0 (broadcastInDim S9000x512 ![] bcast_S_S9000x512),
    StableHlo.TRef.binary (.of main_v86 : TRef sig ⟨S9000x512, .f32⟩) main_call4.v0 main_call4.v1 (cmpf .oge),
    StableHlo.TRef.unary (.of main_cst_16 : TRef sig ⟨S_, .f32⟩) main_call4.v2 id,
    StableHlo.TRef.unary main_call4.v2 main_call4.v3 (broadcastInDim S9000x512 ![] bcast_S_S9000x512),
    StableHlo.TRef.binary main_call4.v3 (.of main_v86 : TRef sig ⟨S9000x512, .f32⟩) main_call4.v4 mulf,
    StableHlo.TRef.ternary main_call4.v1 (.of main_v86 : TRef sig ⟨S9000x512, .f32⟩) main_call4.v4 main_call4.call0.v0 select ]

def t9 : List (HloOp τ sig (Elt F)) :=
  [ StableHlo.unary main_arg11 main_v88 (transpose S512x512 [1, 0] · transposes_S512x512_S512x512_1_0),
    StableHlo.binary main_v87 main_v88 main_v89 (fun l r => Host.dotGeneral dot_S9000x512_S512x512_S9000x512_1_0_0_1_n_n none l r),
    StableHlo.binary main_v78 main_v89 main_v90 (fun l r => Host.dotGeneral dot_S9000x9000_S9000x512_S9000x512_1_0_0_1_n_n none l r),
    StableHlo.binary main_v87 main_v90 main_v91 addf,
    StableHlo.binary main_v87 main_v90 main_v92 mulf,
    StableHlo.binary main_v91 main_v92 main_v93 (fun a b => concatenate S9000x1024 1 [⟨S9000x512, a⟩, ⟨S9000x512, b⟩] concatenates_S9000x512_S9000x512_S9000x1024_d1),
    StableHlo.unary main_arg12 main_v94 (transpose S1024x512 [1, 0] · transposes_S512x1024_S1024x512_1_0),
    StableHlo.binary main_v93 main_v94 main_v95 (fun l r => Host.dotGeneral dot_S9000x1024_S1024x512_S9000x512_1_0_0_1_n_n none l r),
    StableHlo.nullary main_cst_17 (constant S_ .f32 0x3C23D70A#32),
    StableHlo.TRef.nullary main_call5.cst (constant S_ .f32 0x00000000#32),
    StableHlo.TRef.unary main_call5.cst main_call5.v0 (broadcastInDim S9000x512 ![] bcast_S_S9000x512),
    StableHlo.TRef.binary (.of main_v95 : TRef sig ⟨S9000x512, .f32⟩) main_call5.v0 main_call5.v1 (cmpf .oge),
    StableHlo.TRef.unary (.of main_cst_17 : TRef sig ⟨S_, .f32⟩) main_call5.v2 id,
    StableHlo.TRef.unary main_call5.v2 main_call5.v3 (broadcastInDim S9000x512 ![] bcast_S_S9000x512),
    StableHlo.TRef.binary main_call5.v3 (.of main_v95 : TRef sig ⟨S9000x512, .f32⟩) main_call5.v4 mulf,
    StableHlo.TRef.ternary main_call5.v1 (.of main_v95 : TRef sig ⟨S9000x512, .f32⟩) main_call5.v4 main_call5.call0.v0 select ]

abbrev ops : List (HloOp τ sig (Elt F)) := t0 ++ (t1 ++ (t2 ++ (t3 ++ (t4 ++ (t5 ++ (t6 ++ (t7 ++ (t8 ++ t9))))))))

end Cert.ReferenceIdeal.Hand

end
-- ==== Proof.RefRun.lean ====
import proofs.«174456_j18270790877215_2_alg».proof.Proof.RefRunOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
set_option maxHeartbeats 4000000 in
-- a call is its callee's body run on the operands, and sequencing is associative
theorem main_eq (c : Dev nD) : main (F := F) c = seq ops := by
  simp only [main, main_part0, main_part1, fn_norm.body, fn_leaky_relu.body, fn_where.body, fn_where_0.body, fn_leaky_relu_1.body, fn_where_2.body, ops, t0, t1, t2, t3, t4, t5, t6, t7, t8, t9, List.cons_append, List.nil_append, seq, bind_assoc, pure_bind]
  rfl

theorem ops_sub : (ops : List (HloOp τ sig (Elt F))).Forall fun op => op.bufs ⊆ tcRefs τ sig := by
  simp only [ops, t0, t1, t2, t3, t4, t5, t6, t7, t8, t9, List.forall_append, List.Forall, nary_bufs_sub, nullary_bufs_sub, unary_bufs_sub, binary_bufs_sub, ternary_bufs_sub, reshape_bufs_sub, and_self]

set_option maxRecDepth 8192 in
theorem ops_fresh : (ops : List (HloOp τ sig (Elt F))).Forall fun op => op.fresh = ∅ := by
  repeat (first | exact rfl | refine ⟨rfl, ?_⟩)

set_option maxRecDepth 8192 in
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq (by decide) (by decide) defs main (fun _ => ops) main_eq (fun _ => ops_sub) m ρ fun _ => List.forall_iff_forall_mem.1 ops_fresh

end Cert.ReferenceIdeal.Hand

end
-- ==== Proof.SpecR.lean ====
import proofs.«174456_j18270790877215_2_alg».proof.Proof.Gen.ReferenceIdeal

noncomputable section

namespace Cert.ReferenceIdeal.Hand

open Cert.ReferenceIdeal Cert.ReferenceIdeal.Facts₀ Cert.ReferenceIdeal.Facts Idealize.ShloMosaic

variable {F : FTy → Type} [FloatOps F]

def feat (a0 a1 a2 : FVec F S3000x512 .f32) : FVec F S9000x512 .f32 :=
  concatenate S9000x512 0 [⟨S3000x512, a0⟩, ⟨S3000x512, a1⟩, ⟨S3000x512, a2⟩] concatenates_S3000x512_S3000x512_S3000x512_S9000x512_d0

def srcOf (a3 : IVec S2x200000 32) : IVec S200000 32 :=
  shapeCast S200000 (extractStridedSlice S1x200000 ![0, 0] a3 slices_S2x200000_S1x200000_0_0) shapeCasts_S1x200000_S200000
def tgtOf (a3 : IVec S2x200000 32) : IVec S200000 32 :=
  shapeCast S200000 (extractStridedSlice S1x200000 ![1, 0] a3 slices_S2x200000_S1x200000_1_0) shapeCasts_S1x200000_S200000

def wrapBy (n : BitVec 32) (i : IVec S200000 32) : IVec S200000 32 :=
  select (cmpi .slt i (broadcastInDim S200000 ![] bcast_S_S200000 (constantI S_ 32 0#32)))
    (addi i (broadcastInDim S200000 ![] bcast_S_S200000 (constantI S_ 32 n))) i

def col (i : IVec S200000 32) : IVec S200000x1 32 := broadcastInDim S200000x1 ![0] bcast_S200000_S200000x1_0 i

def idxPair (i j : IVec S200000 32) : IVec S200000x2 32 :=
  concatenate S200000x2 1 [⟨S200000x1, col i⟩, ⟨S200000x1, col j⟩] concatenates_S200000x1_S200000x1_S200000x2_d1

def edgeZ (p q : FVec F S200000x128 .f32) (a5 : FVec F S128x256 .f32) (a6 : FVec F S128 .f32) : FVec F S200000x128 .f32 :=
  addf (Host.dotGeneral dot_S200000x256_S256x128_S200000x128_1_0_0_1_n_n none
      (concatenate S200000x256 1 [⟨S200000x128, p⟩, ⟨S200000x128, q⟩] concatenates_S200000x128_S200000x128_S200000x256_d1)
      (transpose S256x128 [1, 0] a5 transposes_S128x256_S256x128_1_0))
    (broadcastInDim S200000x128 ![0, 1] bcast_S1x128_S200000x128_0_1 (broadcastInDim S1x128 ![1] bcast_S128_S1x128_1 a6))

def edgeH (z : FVec F S200000x128 .f32) : FVec F S200000x128 .f32 :=
  select (cmpf .oge z (broadcastInDim S200000x128 ![] bcast_S_S200000x128 (constant S_ .f32 0x00000000#32))) z
    (mulf (broadcastInDim S200000x128 ![] bcast_S_S200000x128 (id (constant S_ .f32 0x3C23D70A#32))) z)

def edgeOut (h : FVec F S200000x128 .f32) (a7 : FVec F S1x128 .f32) (a8 : FVec F S1 .f32) : FVec F S200000 .f32 :=
  Host.divf (broadcastInDim S200000 ![] bcast_S_S200000 (constant S_ .f32 0x3F800000#32))
    (addf (broadcastInDim S200000 ![] bcast_S_S200000 (constant S_ .f32 0x3F800000#32))
      (Host.exp (Host.negf (shapeCast S200000
        (addf (Host.dotGeneral dot_S200000x128_S128x1_S200000x1_1_0_0_1_n_n none h (transpose S128x1 [1, 0] a7 transposes_S1x128_S128x1_1_0))
          (broadcastInDim S200000x1 ![0, 1] bcast_S1x1_S200000x1_0_1 (broadcastInDim S1x1 ![1] bcast_S1_S1x1_1 a8)))
        shapeCasts_S200000x1_S200000))))

def edgeW (p q : FVec F S200000x128 .f32) (a5 : FVec F S128x256 .f32) (a6 : FVec F S128 .f32) (a7 : FVec F S1x128 .f32) (a8 : FVec F S1 .f32) :
    FVec F S200000 .f32 :=
  edgeOut (edgeH (edgeZ p q a5 a6)) a7 a8

def dInv (rs : FVec F S9000 .f32) : FVec F S9000 .f32 :=
  select (cmpf .ogt rs (broadcastInDim S9000 ![] bcast_S_S9000 (constant S_ .f32 0x00000000#32)))
    (Host.powf rs (broadcastInDim S9000 ![] bcast_S_S9000 (constant S_ .f32 0xBF000000#32)))
    (broadcastInDim S9000 ![] bcast_S_S9000 (id (constant S_ .f32 0x00000000#32)))

def rowNormE (y : FVec F S200000x128 .f32) : FVec F S200000x1 .f32 :=
  Host.sqrt (broadcastInDim S200000x1 ![0] bcast_S200000_S200000x1_0
    (Host.reduceAdd (mulf y y) (constant S_ .f32 0x00000000#32) reducesTo_S200000x128_S200000_d1 h_S_))

def l2nE (y : FVec F S200000x128 .f32) : FVec F S200000x128 .f32 :=
  Host.divf y (broadcastInDim S200000x128 ![0, 1] bcast_S200000x1_S200000x128_0_1
    (maximumf (rowNormE y) (broadcastInDim S200000x1 ![] bcast_S_S200000x1 (constant S_ .f32 0x2B8CBCCC#32))))

def sharedRef (f : FVec F S9000x512 .f32) (a4 : FVec F S128x512 .f32) (i : IVec S200000 32) : FVec F S200000x128 .f32 :=
  l2nE (Host.dotGeneral dot_S200000x512_S512x128_S200000x128_1_0_0_1_n_n none
    (Host.gather gather_S9000x512_S200000x1_S200000x512_1_0_n_n_0_1_1512 f (col (wrapBy 9000#32 i)))
    (transpose S512x128 [1, 0] a4 transposes_S128x512_S512x128_1_0))

def adj (src tgt : IVec S200000 32) (w : FVec F S200000 .f32) : FVec F S9000x9000 .f32 :=
  Host.scatterAdd scatter_S9000x9000_S200000x2_S200000_n_01_01_1
    (broadcastInDim S9000x9000 ![] bcast_S_S9000x9000 (constant S_ .f32 0x00000000#32)) (idxPair (wrapBy 9000#32 src) (wrapBy 9000#32 tgt)) w

def rowSumR (A : FVec F S9000x9000 .f32) : FVec F S9000 .f32 :=
  Host.reduceAdd A (constant S_ .f32 0x00000000#32) reducesTo_S9000x9000_S9000_d1 h_S_

def gcnOf (A : FVec F S9000x9000 .f32) (d : FVec F S9000 .f32) : FVec F S9000x9000 .f32 :=
  mulf (mulf (broadcastInDim S9000x9000 ![0, 1] bcast_S9000x1_S9000x9000_0_1 (broadcastInDim S9000x1 ![0] bcast_S9000_S9000x1_0 d)) A)
    (broadcastInDim S9000x9000 ![0, 1] bcast_S1x9000_S9000x9000_0_1 (broadcastInDim S1x9000 ![1] bcast_S9000_S1x9000_1 d))

def gcnR (a0 a1 a2 : FVec F S3000x512 .f32) (a3 : IVec S2x200000 32) (a4 : FVec F S128x512 .f32) (a5 : FVec F S128x256 .f32)
    (a6 : FVec F S128 .f32) (a7 : FVec F S1x128 .f32) (a8 : FVec F S1 .f32) : FVec F S9000x9000 .f32 :=
  gcnOf (adj (srcOf a3) (tgtOf a3) (edgeW (sharedRef (feat a0 a1 a2) a4 (srcOf a3)) (sharedRef (feat a0 a1 a2) a4 (tgtOf a3)) a5 a6 a7 a8))
    (dInv (rowSumR (adj (srcOf a3) (tgtOf a3) (edgeW (sharedRef (feat a0 a1 a2) a4 (srcOf a3)) (sharedRef (feat a0 a1 a2) a4 (tgtOf a3)) a5 a6 a7 a8))))

def lreluR (y : FVec F S9000x512 .f32) : FVec F S9000x512 .f32 :=
  select (cmpf .oge y (broadcastInDim S9000x512 ![] bcast_S_S9000x512 (constant S_ .f32 0x00000000#32))) y
    (mulf (broadcastInDim S9000x512 ![] bcast_S_S9000x512 (id (constant S_ .f32 0x3C23D70A#32))) y)

def nbR (g : FVec F S9000x9000 .f32) (x : FVec F S9000x512 .f32) (w1 : FVec F S512x512 .f32) : FVec F S9000x512 .f32 :=
  Host.dotGeneral dot_S9000x9000_S9000x512_S9000x512_1_0_0_1_n_n none g
    (Host.dotGeneral dot_S9000x512_S512x512_S9000x512_1_0_0_1_n_n none x (transpose S512x512 [1, 0] w1 transposes_S512x512_S512x512_1_0))

def layerR (g : FVec F S9000x9000 .f32) (x : FVec F S9000x512 .f32) (w1 : FVec F S512x512 .f32) (w2 : FVec F S512x1024 .f32) : FVec F S9000x512 .f32 :=
  lreluR (Host.dotGeneral dot_S9000x1024_S1024x512_S9000x512_1_0_0_1_n_n none
    (concatenate S9000x1024 1 [⟨S9000x512, addf x (nbR g x w1)⟩, ⟨S9000x512, mulf x (nbR g x w1)⟩] concatenates_S9000x512_S9000x512_S9000x1024_d1)
    (transpose S1024x512 [1, 0] w2 transposes_S512x1024_S1024x512_1_0))

def rOut (a0 a1 a2 : FVec F S3000x512 .f32) (a3 : IVec S2x200000 32) (a4 : FVec F S128x512 .f32) (a5 : FVec F S128x256 .f32)
    (a6 : FVec F S128 .f32) (a7 : FVec F S1x128 .f32) (a8 : FVec F S1 .f32) (a9 : FVec F S512x512 .f32)
    (a10 : FVec F S512x1024 .f32) (a11 : FVec F S512x512 .f32) (a12 : FVec F S512x1024 .f32) : FVec F S9000x512 .f32 :=
  layerR (gcnR a0 a1 a2 a3 a4 a5 a6 a7 a8) (layerR (gcnR a0 a1 a2 a3 a4 a5 a6 a7 a8) (feat a0 a1 a2) a9 a10) a11 a12

end Cert.ReferenceIdeal.Hand

end
-- ==== Proof.RefVal.lean ====
import proofs.«174456_j18270790877215_2_alg».proof.Proof.RefRun
import proofs.«174456_j18270790877215_2_alg».proof.Proof.SpecR
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def pre (f : FVec F S9000x512 .f32) (a4 : FVec F S128x512 .f32) (i : IVec S200000 32) : FVec F S200000x128 .f32 :=
  Host.dotGeneral dot_S200000x512_S512x128_S200000x128_1_0_0_1_n_n none
    (Host.gather gather_S9000x512_S200000x1_S200000x512_1_0_n_n_0_1_1512 f (col (wrapBy 9000#32 i)))
    (transpose S512x128 [1, 0] a4 transposes_S128x512_S512x128_1_0)

def Writes (t : List (HloOp τ sig (Elt F))) (Wl : List (Ref sig .tc)) : Prop :=
  t.Forall fun op => op.writes ⊆ (Wl.map (Proc.devRef (τ := τ) .tc)).toFinset

theorem keep {t : List (HloOp τ sig (Elt F))} {Wl : List (Ref sig .tc)} (ht : Writes t Wl) (W : Valuation τ sig (Elt F)) (r : Ref sig .tc)
    (h : r ∉ Wl) : after t W (no_index (Proc.devRef .tc r)) = W (Proc.devRef .tc r) :=
  after_of_writes_sub t W ht h

abbrev t0_W : List (Ref sig .tc) := [main_v0, main_v1, main_v2, main_v3, main_v4, main_c, main_v5, main_v6, main_c_0, main_v7, main_v8, main_v9, main_v10, main_v11, main_v12, main_v13]
theorem t0_writes : Writes (F := F) t0 t0_W := by
  unfold Writes t0
  simp only [List.Forall, nullary_writes, unary_writes, binary_writes, ternary_writes, reshape_writes, nary_writes, Finset.singleton_subset_iff, List.mem_toFinset]
  repeat' apply And.intro
  all_goals exact List.mem_map_of_mem (by decide)

abbrev t1_W : List (Ref sig .tc) := [main_call0_v0, main_call0_cst, main_call0_v1, main_call0_v2, main_v14, main_cst, main_v15, main_v16, main_v17, main_v18]
theorem t1_writes : Writes (F := F) t1 t1_W := by
  unfold Writes t1
  simp only [List.Forall, nullary_writes, unary_writes, binary_writes, Finset.singleton_subset_iff, List.mem_toFinset]
  repeat' apply And.intro
  all_goals exact List.mem_map_of_mem (by decide)

abbrev t2_W : List (Ref sig .tc) := [main_c_1, main_v19, main_v20, main_c_2, main_v21, main_v22, main_v23, main_v24, main_v25, main_v26, main_v27]
theorem t2_writes : Writes (F := F) t2 t2_W := by
  unfold Writes t2
  simp only [List.Forall, nullary_writes, unary_writes, binary_writes, ternary_writes, Finset.singleton_subset_iff, List.mem_toFinset]
  repeat' apply And.intro
  all_goals exact List.mem_map_of_mem (by decide)

abbrev t3_W : List (Ref sig .tc) := [main_call1_v0, main_call1_cst, main_call1_v1, main_call1_v2, main_v28, main_cst_3, main_v29, main_v30, main_v31, main_v32]
theorem t3_writes : Writes (F := F) t3 t3_W := by
  unfold Writes t3
  simp only [List.Forall, nullary_writes, unary_writes, binary_writes, Finset.singleton_subset_iff, List.mem_toFinset]
  repeat' apply And.intro
  all_goals exact List.mem_map_of_mem (by decide)

abbrev t4_W : List (Ref sig .tc) := [main_v33, main_v34, main_v35, main_v36, main_v37, main_v38, main_cst_4, main_call2_cst, main_call2_v0, main_call2_v1, main_call2_v2, main_call2_v3, main_call2_v4, main_v39]
theorem t4_writes : Writes (F := F) t4 t4_W := by
  unfold Writes t4
  simp only [List.Forall, nullary_writes, unary_writes, binary_writes, ternary_writes, Finset.singleton_subset_iff, List.mem_toFinset]
  repeat' apply And.intro
  all_goals exact List.mem_map_of_mem (by decide)

abbrev t5_W : List (Ref sig .tc) := [main_v40, main_v41, main_v42, main_v43, main_v44, main_v45, main_v46, main_v47, main_cst_5, main_v48, main_v49, main_cst_6, main_v50, main_v51]
theorem t5_writes : Writes (F := F) t5 t5_W := by
  unfold Writes t5
  simp only [List.Forall, nullary_writes, unary_writes, binary_writes, reshape_writes, Finset.singleton_subset_iff, List.mem_toFinset]
  repeat' apply And.intro
  all_goals exact List.mem_map_of_mem (by decide)

abbrev t6_W : List (Ref sig .tc) := [main_cst_7, main_v52, main_c_8, main_v53, main_v54, main_c_9, main_v55, main_v56, main_v57, main_c_10, main_v58, main_v59, main_c_11, main_v60, main_v61, main_v62, main_v63, main_v64, main_v65, main_v66]
theorem t6_writes : Writes (F := F) t6 t6_W := by
  unfold Writes t6
  simp only [List.Forall, nullary_writes, unary_writes, binary_writes, ternary_writes, Finset.singleton_subset_iff, List.mem_toFinset]
  repeat' apply And.intro
  all_goals exact List.mem_map_of_mem (by decide)

abbrev t7_W : List (Ref sig .tc) := [main_cst_12, main_v67, main_cst_13, main_v68, main_v69, main_cst_14, main_v70, main_v71, main_cst_15, main_call3_v0, main_call3_v1, main_v72, main_v73, main_v74, main_v75, main_v76, main_v77, main_v78]
theorem t7_writes : Writes (F := F) t7 t7_W := by
  unfold Writes t7
  simp only [List.Forall, nullary_writes, unary_writes, binary_writes, ternary_writes, Finset.singleton_subset_iff, List.mem_toFinset]
  repeat' apply And.intro
  all_goals exact List.mem_map_of_mem (by decide)

abbrev t8_W : List (Ref sig .tc) := [main_v79, main_v80, main_v81, main_v82, main_v83, main_v84, main_v85, main_v86, main_cst_16, main_call4_cst, main_call4_v0, main_call4_v1, main_call4_v2, main_call4_v3, main_call4_v4, main_v87]
theorem t8_writes : Writes (F := F) t8 t8_W := by
  unfold Writes t8
  simp only [List.Forall, nullary_writes, unary_writes, binary_writes, ternary_writes, Finset.singleton_subset_iff, List.mem_toFinset]
  repeat' apply And.intro
  all_goals exact List.mem_map_of_mem (by decide)

abbrev t9_W : List (Ref sig .tc) := [main_v88, main_v89, main_v90, main_v91, main_v92, main_v93, main_v94, main_v95, main_cst_17, main_call5_cst, main_call5_v0, main_call5_v1, main_call5_v2, main_call5_v3, main_call5_v4, main_v96]
theorem t9_writes : Writes (F := F) t9 t9_W := by
  unfold Writes t9
  simp only [List.Forall, nullary_writes, unary_writes, binary_writes, ternary_writes, Finset.singleton_subset_iff, List.mem_toFinset]
  repeat' apply And.intro
  all_goals exact List.mem_map_of_mem (by decide)

section Stretch

variable (W : Valuation τ sig (Elt F))

theorem T0_v0 : after t0 W (no_index (Proc.devRef .tc main_v0)) = feat (W (Proc.devRef .tc main_arg0)) (W (Proc.devRef .tc main_arg1)) (W (Proc.devRef .tc main_arg2)) := by
  unfold t0
  after_results; rfl

theorem T0_v2 : after t0 W (no_index (Proc.devRef .tc main_v2)) = srcOf (W (Proc.devRef .tc main_arg3)) := by
  unfold t0
  after_results; rfl

theorem T0_v4 : after t0 W (no_index (Proc.devRef .tc main_v4)) = tgtOf (W (Proc.devRef .tc main_arg3)) := by
  unfold t0
  after_results; rfl

theorem T0_v13 : after t0 W (no_index (Proc.devRef .tc main_v13)) = pre (feat (W (Proc.devRef .tc main_arg0)) (W (Proc.devRef .tc main_arg1)) (W (Proc.devRef .tc main_arg2))) (W (Proc.devRef .tc main_arg4)) (srcOf (W (Proc.devRef .tc main_arg3))) := by
  unfold t0
  after_results; rfl

theorem T1_v18 : after t1 W (no_index (Proc.devRef .tc main_v18)) = l2nE (W (Proc.devRef .tc main_v13)) := by
  unfold t1
  after_results; rfl

theorem T2_v27 : after t2 W (no_index (Proc.devRef .tc main_v27)) = pre (W (Proc.devRef .tc main_v0)) (W (Proc.devRef .tc main_arg4)) (W (Proc.devRef .tc main_v4)) := by
  unfold t2
  after_results; rfl

theorem T3_v32 : after t3 W (no_index (Proc.devRef .tc main_v32)) = l2nE (W (Proc.devRef .tc main_v27)) := by
  unfold t3
  after_results; rfl

theorem T4_v39 : after t4 W (no_index (Proc.devRef .tc main_v39)) = edgeH (edgeZ (W (Proc.devRef .tc main_v18)) (W (Proc.devRef .tc main_v32)) (W (Proc.devRef .tc main_arg5)) (W (Proc.devRef .tc main_arg6))) := by
  unfold t4
  after_results; rfl

theorem T5_v51 : after t5 W (no_index (Proc.devRef .tc main_v51)) = edgeOut (W (Proc.devRef .tc main_v39)) (W (Proc.devRef .tc main_arg7)) (W (Proc.devRef .tc main_arg8)) := by
  unfold t5
  after_results; rfl

set_option maxHeartbeats 4000000 in
theorem T6_v66 : after t6 W (no_index (Proc.devRef .tc main_v66)) = adj (W (Proc.devRef .tc main_v2)) (W (Proc.devRef .tc main_v4)) (W (Proc.devRef .tc main_v51)) := by
  unfold t6
  after_results; rfl

theorem T7_v78 : after t7 W (no_index (Proc.devRef .tc main_v78)) = gcnOf (W (Proc.devRef .tc main_v66)) (dInv (rowSumR (W (Proc.devRef .tc main_v66)))) := by
  unfold t7
  after_results_simp; rfl

theorem T8_v87 : after t8 W (no_index (Proc.devRef .tc main_v87)) = layerR (W (Proc.devRef .tc main_v78)) (W (Proc.devRef .tc main_v0)) (W (Proc.devRef .tc main_arg9)) (W (Proc.devRef .tc main_arg10)) := by
  unfold t8
  after_results_simp; rfl

theorem T9_v96 : after t9 W (no_index (Proc.devRef .tc main_v96)) = layerR (W (Proc.devRef .tc main_v78)) (W (Proc.devRef .tc main_v87)) (W (Proc.devRef .tc main_arg11)) (W (Proc.devRef .tc main_arg12)) := by
  unfold t9
  after_results_simp; rfl

end Stretch

theorem after_ops (V : Valuation τ sig (Elt F)) :
    after ops V = after t9 (after t8 (after t7 (after t6 (after t5 (after t4 (after t3 (after t2 (after t1 (after t0 V))))))))) := by
  funext b
  unfold ops
  simp only [after_append]

theorem out_eq (V : Valuation τ sig (Elt F)) :
    StableHlo.after ops V (main_v96 : DevRef τ sig)
      = rOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [after_ops]
  simp (disch := decide) only [T0_v0, T0_v2, T0_v4, T0_v13, T1_v18, T2_v27, T3_v32, T4_v39, T5_v51, T6_v66, T7_v78, T8_v87, T9_v96, keep t0_writes, keep t1_writes, keep t2_writes, keep t3_writes, keep t4_writes, keep t5_writes, keep t6_writes, keep t7_writes, keep t8_writes]
  rfl

theorem arg_eq (V : Valuation τ sig (Elt F)) (r : Ref sig .tc)
    (h : r ∉ t0_W ∧ r ∉ t1_W ∧ r ∉ t2_W ∧ r ∉ t3_W ∧ r ∉ t4_W ∧ r ∉ t5_W ∧ r ∉ t6_W ∧ r ∉ t7_W ∧ r ∉ t8_W ∧ r ∉ t9_W) :
    after ops V (Proc.devRef .tc r) = V (Proc.devRef .tc r) := by
  obtain ⟨h0, h1, h2, h3, h4, h5, h6, h7, h8, h9⟩ := h
  rw [after_ops, keep t9_writes _ _ h9, keep t8_writes _ _ h8, keep t7_writes _ _ h7, keep t6_writes _ _ h6, keep t5_writes _ _ h5, keep t4_writes _ _ h4, keep t3_writes _ _ h3, keep t2_writes _ _ h2, keep t1_writes _ _ h1, keep t0_writes _ _ h0]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96) = rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun _ h c => ?_) (run_main m ρ)
  have A := fun r hr => (h c r).trans (arg_eq (launchContents m c) r hr)
  exact ⟨(h c main_v96).trans (out_eq _), A main_arg0 (by decide), A main_arg1 (by decide), A main_arg2 (by decide), A main_arg3 (by decide), A main_arg4 (by decide), A main_arg5 (by decide), A main_arg6 (by decide), A main_arg7 (by decide), A main_arg8 (by decide), A main_arg9 (by decide), A main_arg10 (by decide), A main_arg11 (by decide), A main_arg12 (by decide)⟩

end Cert.ReferenceIdeal.Hand

end
-- ==== Proof.SpecRange.lean ====
import Idealize.ShloMosaic.PureOps
import Idealize.ShloMosaic.Lib.ValueIdx

namespace Cert.Spec

open Idealize.ShloMosaic Idealize.ShloMosaic.ValueIdx

def InRange (a3 : IVec (⟨2, ![2, 200000]⟩ : Shape) 32) : Prop :=
  ∀ (k : Fin 2) (e : Fin 200000), 0 ≤ (a3 (ix2 k e)).toInt ∧ (a3 (ix2 k e)).toInt < 9000

def VecInRange (i : IVec (⟨1, ![200000]⟩ : Shape) 32) : Prop :=
  ∀ e : Fin 200000, 0 ≤ (i (ix1 e)).toInt ∧ (i (ix1 e)).toInt < 9000

end Cert.Spec
-- ==== Proof.PreRangeK.lean ====
import proofs.«174456_j18270790877215_2_alg».proof.Proof.SpecK
import proofs.«174456_j18270790877215_2_alg».proof.Proof.SpecRange
import Idealize.ShloMosaic.Lib.ValueLayout

namespace Cert.Math

open Idealize.ShloMosaic ValueIdx KernelIdeal.Hand

theorem srcOf_inRange (a3 : IVec KernelIdeal.S2x200000 32) (hr : Spec.InRange a3) : Spec.VecInRange (srcOf a3) := fun e => by
  rw [show srcOf a3 (ix1 e) = a3 (ix2 0 e) from
    (shapeCast_1a_a_apply _ _ e).trans (slice2_axis0_apply 0 a3 _ (0 : Fin 1) e (0 : Fin 2) rfl)]
  exact hr 0 e

theorem tgtOf_inRange (a3 : IVec KernelIdeal.S2x200000 32) (hr : Spec.InRange a3) : Spec.VecInRange (tgtOf a3) := fun e => by
  rw [show tgtOf a3 (ix1 e) = a3 (ix2 1 e) from
    (shapeCast_1a_a_apply _ _ e).trans (slice2_axis0_apply 1 a3 _ (0 : Fin 1) e (1 : Fin 2) rfl)]
  exact hr 1 e

end Cert.Math
-- ==== Proof.MathShared.lean ====
import proofs.«174456_j18270790877215_2_alg».proof.Proof.SpecK
import proofs.«174456_j18270790877215_2_alg».proof.Proof.SpecR
import Idealize.ShloMosaic.Lib.ValueIdx
import Idealize.ShloMosaic.Lib.ValueLayout
import Idealize.ShloMosaic.Lib.StackMember
import Idealize.ShloMosaic.Lib.Pipeline.Value
import Idealize.ShloMosaic.PureOps.Ideal.Laws
import Idealize.ShloMosaic.Lib.IdealHost

noncomputable section

namespace Cert.Math

open Idealize.ShloMosaic Idealize.ShloMosaic.ValueIdx

def rowOf {R w : Nat} (idx : IVec ⟨2, ![R, 1]⟩ w) (e : Fin R) : Fin 9000 :=
  ⟨min (idx (ix2 e 0)).toInt.toNat 8999, by omega⟩

section Gather
variable {α : Type}

abbrev rowsDims (R C : Nat) (wf : GatherDims.WF ⟨2, ![9000, C]⟩ ⟨2, ![R, 1]⟩ ⟨2, ![R, C]⟩ [1] [0] [] [0] [] 1 ![1, C]) :
    GatherDims ⟨2, ![9000, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rows_apply {R C w : Nat}
    (wf : GatherDims.WF ⟨2, ![9000, C]⟩ ⟨2, ![R, 1]⟩ ⟨2, ![R, C]⟩ [1] [0] [] [0] [] 1 ![1, C])
    (x : (⟨2, ![9000, C]⟩ : Shape).Idx → α) (idx : IVec ⟨2, ![R, 1]⟩ w) (e : Fin R) (k : Fin C) :
    Host.gather (rowsDims R C wf) x idx (ix2 e k) = x (ix2 (rowOf idx e) k) := by
  unfold Host.gather
  congr 1
  funext a
  refine Fin.ext ?_
  show (rowsDims R C wf).start (ix2 e k) idx a + (rowsDims R C wf).batchCoord (ix2 e k) a + (rowsDims R C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, Nat.zero_lt_two⟩ : Fin 2) ∈ (rowsDims R C wf).startIndexMap from List.mem_singleton.mpr rfl)]
    have hsi : (rowsDims R C wf).siIdx (ix2 e k) ⟨List.idxOf (⟨0, Nat.zero_lt_two⟩ : Fin 2) (rowsDims R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    have hs : ∀ h1 : 1 < 2, (rowsDims R C wf).start (ix2 e k) idx ⟨1, h1⟩ = 0 := fun h1 => by
      unfold GatherDims.start
      rw [dif_neg (fun hm => by simp at hm)]
    rw [hs]
    simp only [Nat.add_zero, Nat.zero_add]
    rfl

end Gather

section Rows
variable {n : Nat} {α : Type}

def normRow (z eps : EReal) (y : Fin 128 → EReal) (k : Fin 128) : EReal :=
  Ideal.div (y k) (max (Ideal.sqrt (z + ∑ k' : Fin 128, y k' * y k')) eps)

theorem bcast_col_apply {m : Nat} (h : (⟨2, ![n, 1]⟩ : Shape).BroadcastsInDim ⟨2, ![n, m]⟩ ![0, 1])
    (x : (⟨2, ![n, 1]⟩ : Shape).Idx → α) (r : Fin n) (k : Fin m) :
    broadcastInDim ⟨2, ![n, m]⟩ ![0, 1] h x (ix2 r k) = x (ix2 r 0) := by
  refine broadcastInDim_apply _ h x _ _ fun a => ?_
  match a with
  | ⟨0, _⟩ =>
    show r.val = if n = 1 then 0 else r.val
    have := r.isLt
    split <;> omega
  | ⟨1, _⟩ => rfl

theorem bcast_vec_col_apply (h : (⟨1, ![n]⟩ : Shape).BroadcastsInDim ⟨2, ![n, 1]⟩ ![0])
    (x : (⟨1, ![n]⟩ : Shape).Idx → α) (r : Fin n) (c : Fin 1) :
    broadcastInDim ⟨2, ![n, 1]⟩ ![0] h x (ix2 r c) = x (ix1 r) := by
  refine broadcastInDim_apply _ h x _ _ fun a => ?_
  match a with
  | ⟨0, _⟩ =>
    show r.val = if n = 1 then 0 else r.val
    have := r.isLt
    split <;> omega

theorem reduce_row_apply (hr : (⟨2, ![n, 128]⟩ : Shape).ReducesTo [1] ⟨1, ![n]⟩) (hu : 0 < (⟨0, ![]⟩ : Shape).numel)
    (x : FVec Ideal ⟨2, ![n, 128]⟩ .f32) (init : FVec Ideal ⟨0, ![]⟩ .f32) (r : Fin n) :
    Host.reduceAdd x init hr hu (ix1 r) = init (Shape.Idx.first hu) + ∑ k : Fin 128, x (ix2 r k) := by
  have hR : (⟨2, ![n, 128]⟩ : Shape).Reduces [1] ⟨1, ![n]⟩ := ⟨hr.1, Nat.one_pos, hr.2⟩
  rw [hostReduceAdd_apply, Ideal.hostReduceAdd_single hr hR]
  refine congrArg _ (Finset.sum_congr rfl fun k _ => congrArg x ?_)
  funext a; refine Fin.ext ?_
  match a with
  | ⟨0, _⟩ => rfl
  | ⟨1, _⟩ => rfl

end Rows

section Sides

theorem hostSqrt_apply {s : Shape} {φ : FTy} (x : FVec Ideal s φ) (i : s.Idx) : Host.sqrt x i = Ideal.sqrt (x i) := rfl

theorem l2nK_apply (Y : FVec Ideal Cert.KernelIdeal.S9000x128 .f32) (r : Fin 9000) (k : Fin 128) :
    Cert.KernelIdeal.Hand.l2n Y (ix2 r k)
      = normRow (Ideal.ofBits .f32 0x00000000#32) (Ideal.ofBits .f32 0x2B8CBCCC#32) (fun k' => Y (ix2 r k')) k := by
  unfold Cert.KernelIdeal.Hand.l2n Cert.KernelIdeal.Hand.rowNorm normRow
  rw [hostDivf_apply, bcast_col_apply, maximumf_apply, hostSqrt_apply, bcast_vec_col_apply, reduce_row_apply,
    broadcastInDim_scalar_apply]
  rfl

theorem l2nR_apply (Z : FVec Ideal Cert.ReferenceIdeal.S200000x128 .f32) (e : Fin 200000) (k : Fin 128) :
    Cert.ReferenceIdeal.Hand.l2nE Z (ix2 e k)
      = normRow (Ideal.ofBits .f32 0x00000000#32) (Ideal.ofBits .f32 0x2B8CBCCC#32) (fun k' => Z (ix2 e k')) k := by
  unfold Cert.ReferenceIdeal.Hand.l2nE Cert.ReferenceIdeal.Hand.rowNormE normRow
  rw [hostDivf_apply, bcast_col_apply, maximumf_apply, hostSqrt_apply, bcast_vec_col_apply, reduce_row_apply,
    broadcastInDim_scalar_apply]
  rfl

end Sides

-- both sides, read at (e, k), are the clamped row's projection, normalised: gathering rows commutes with row-wise maps
theorem shared_eq (f : FVec Ideal Cert.KernelIdeal.S9000x512 .f32) (a4 : FVec Ideal Cert.KernelIdeal.S128x512 .f32)
    (i : IVec Cert.KernelIdeal.S200000 32) :
    Cert.KernelIdeal.Hand.sharedAt (Cert.KernelIdeal.Hand.sharedAll f a4) i = Cert.ReferenceIdeal.Hand.sharedRef f a4 i := by
  funext j
  obtain ⟨e, k, rfl⟩ : ∃ e k, j = ix2 e k := ⟨j 0, j 1, eq_ix2 j⟩
  unfold Cert.KernelIdeal.Hand.sharedAt Cert.KernelIdeal.Hand.sharedAll Cert.ReferenceIdeal.Hand.sharedRef
  refine (gather_rows_apply Cert.KernelIdeal.Facts₀.gather_S9000x128_S200000x1_S200000x128_1_0_n_n_0_1_1128_wf _ _ e k).trans ?_
  rw [l2nK_apply, l2nR_apply]
  refine congrArg (fun y => normRow _ _ y k) (funext fun k' => ?_)
  refine (StackMember.dotGeneral_plain_apply none _ _ _ _).trans
    (Eq.trans (Finset.sum_congr rfl fun c _ => ?_) (StackMember.dotGeneral_plain_apply none _ _ _ _).symm)
  rw [transpose_ix2_apply]
  exact congrArg (· * _) (gather_rows_apply Cert.ReferenceIdeal.Facts₀.gather_S9000x512_S200000x1_S200000x512_1_0_n_n_0_1_1512_wf f _ e c).symm

theorem logistic_mem (x : EReal) : 0 ≤ Ideal.logistic x ∧ Ideal.logistic x ≤ 1 := by
  induction x using EReal.rec with
  | bot => rw [Ideal.logistic_bot]; exact ⟨le_rfl, zero_le_one⟩
  | top => rw [Ideal.logistic_top]; exact ⟨zero_le_one, le_rfl⟩
  | coe r =>
    rw [Ideal.logistic_coe, ← EReal.coe_one]
    have := Real.exp_pos (-r)
    exact ⟨EReal.coe_nonneg.mpr (inv_nonneg.mpr (by linarith)), EReal.coe_le_coe_iff.mpr (inv_le_one_of_one_le₀ (by linarith))⟩

theorem logistic_form_apply {s : Shape} (hb : (⟨0, ![]⟩ : Shape).BroadcastsInDim s ![]) (x : FVec Ideal s .f32) (e : s.Idx) :
    Host.divf (broadcastInDim s ![] hb (constant ⟨0, ![]⟩ .f32 0x3F800000#32))
      (addf (broadcastInDim s ![] hb (constant ⟨0, ![]⟩ .f32 0x3F800000#32)) (Host.exp (Host.negf x))) e
      = Ideal.logistic (x e) := by
  rw [hostDivf_apply, addf_apply, broadcastInDim_scalar_apply]
  show Ideal.div (Ideal.ofBits .f32 0x3F800000#32) (Ideal.ofBits .f32 0x3F800000#32 + Ideal.exp (-(x e))) = _
  rw [Ideal.ofBits_one_f32]
  rfl

theorem edgeOut_nonneg (h : FVec Ideal Cert.ReferenceIdeal.S200000x128 .f32) (a7 : FVec Ideal Cert.ReferenceIdeal.S1x128 .f32)
    (a8 : FVec Ideal Cert.ReferenceIdeal.S1 .f32) (e : Cert.ReferenceIdeal.S200000.Idx) :
    0 ≤ Cert.ReferenceIdeal.Hand.edgeOut h a7 a8 e := by
  unfold Cert.ReferenceIdeal.Hand.edgeOut
  rw [logistic_form_apply]
  exact (logistic_mem _).1

theorem edgeOut_le_one (h : FVec Ideal Cert.ReferenceIdeal.S200000x128 .f32) (a7 : FVec Ideal Cert.ReferenceIdeal.S1x128 .f32)
    (a8 : FVec Ideal Cert.ReferenceIdeal.S1 .f32) (e : Cert.ReferenceIdeal.S200000.Idx) :
    Cert.ReferenceIdeal.Hand.edgeOut h a7 a8 e ≤ 1 := by
  unfold Cert.ReferenceIdeal.Hand.edgeOut
  rw [logistic_form_apply]
  exact (logistic_mem _).2

end Cert.Math

end
-- ==== Proof.MathGcn.lean ====
import proofs.«174456_j18270790877215_2_alg».proof.Proof.SpecK
import proofs.«174456_j18270790877215_2_alg».proof.Proof.SpecR
import proofs.«174456_j18270790877215_2_alg».proof.Proof.SpecRange
import Idealize.ShloMosaic.PureOps.Ideal.Laws
import Idealize.ShloMosaic.Lib.ValueIdx
import Idealize.ShloMosaic.Lib.Pipeline.Value
import Idealize.ShloMosaic.Lib.StableHlo.Predicate
import Mathlib.Data.EReal.Operations
import Mathlib.Algebra.BigOperators.Group.Finset.Basic

open Idealize.ShloMosaic Idealize.ShloMosaic.ValueIdx
open scoped BigOperators

noncomputable section
namespace Cert.Math

theorem wrap_elem (x n : BitVec 32) (h : 0 ≤ x.toInt) :
    Scalar.select (IntOp.cmpi .slt x 0#32) (IntOp.addi x n) x = x := by
  have hs : x.slt 0#32 = false := by
    simp only [BitVec.slt, BitVec.toInt_zero, decide_eq_false_iff_not, Int.not_lt]
    exact h
  show (if BitVec.ofBool (x.slt 0#32) = 1 then _ else _) = _
  rw [hs]
  rfl

theorem wrapK_eq (n : BitVec 32) (i : IVec Cert.KernelIdeal.S200000 32) (h : ∀ e : Fin 200000, 0 ≤ (i (ix1 e)).toInt) :
    Cert.KernelIdeal.Hand.wrapBy n i = i := by
  funext j
  rw [eq_ix1 j]
  exact wrap_elem _ _ (h _)

theorem colK_apply (i : IVec Cert.KernelIdeal.S200000 32) (e : Fin 200000) (c : Fin 1) :
    Cert.KernelIdeal.Hand.col i (ix2 e c) = i (ix1 e) :=
  broadcastInDim_apply _ _ _ _ (ix1 e) fun a => by match a with | ⟨0, _⟩ => rfl

theorem idxPairK_apply0 (i j : IVec Cert.KernelIdeal.S200000 32) (e : Fin 200000) :
    Cert.KernelIdeal.Hand.idxPair i j (ix2 e 0) = i (ix1 e) :=
  (concatenate_pair_apply_left (t := Cert.KernelIdeal.S200000x2) (s₁ := Cert.KernelIdeal.S200000x1)
    (s₂ := Cert.KernelIdeal.S200000x1) (1 : Fin 2) _ _ _ (ix2 e (0 : Fin 2)) rfl (ix2 e (0 : Fin 1))
    fun b => by match b with | ⟨0, _⟩ => rfl | ⟨1, _⟩ => rfl).trans (colK_apply i e 0)

theorem idxPairK_apply1 (i j : IVec Cert.KernelIdeal.S200000 32) (e : Fin 200000) :
    Cert.KernelIdeal.Hand.idxPair i j (ix2 e 1) = j (ix1 e) :=
  (concatenate_pair_apply_right (t := Cert.KernelIdeal.S200000x2) (s₁ := Cert.KernelIdeal.S200000x1)
    (s₂ := Cert.KernelIdeal.S200000x1) (1 : Fin 2) _ _ _ (ix2 e (1 : Fin 2)) rfl rfl (ix2 e (0 : Fin 1))
    (fun b hb => by match b with | ⟨0, _⟩ => rfl | ⟨1, _⟩ => exact absurd rfl hb) rfl).trans (colK_apply j e 0)

-- an update lands on i exactly when, on every axis, its start plus its window coordinate is i's coordinate
theorem resultIdx?_eq_some {s si u : Shape} (d : ScatterDims s si u) {w : Nat} (j : u.Idx) (idx : IVec si w) (i : s.Idx) :
    d.resultIdx? j idx = some i ↔ ∀ a, d.start j idx a + d.window j a = (i a).val := by
  unfold ScatterDims.resultIdx?
  split
  · next h =>
    refine ⟨fun hh a => ?_, fun g => congrArg some (funext fun a => Fin.ext ?_)⟩
    · obtain rfl := Option.some.inj hh
      exact (Int.toNat_of_nonneg (h a).1).symm
    · show (d.start j idx a + d.window j a).toNat = (i a).val
      rw [g a]
      rfl
  · next h =>
    refine ⟨fun hh => (nomatch hh), fun g => (h fun a => ?_).elim⟩
    rw [g a]
    exact ⟨Int.natCast_nonneg _, Int.ofNat_lt.2 (i a).isLt⟩

theorem window_eq_zero {s si u : Shape} (d : ScatterDims s si u) (j : u.Idx) (a : Fin s.rank) (ha : a ∈ d.insertedWindowDims) :
    d.window j a = 0 :=
  dif_neg fun h => (of_decide_eq_true (List.mem_filter.1 h).2) ha

abbrev scat2 (M N E : Nat) (wf : ScatterDims.WF ⟨2, ![M, N]⟩ ⟨2, ![E, 2]⟩ ⟨1, ![E]⟩ [] [0, 1] [0, 1] 1) :
    ScatterDims ⟨2, ![M, N]⟩ ⟨2, ![E, 2]⟩ ⟨1, ![E]⟩ where
  updateWindowDims := []
  insertedWindowDims := [0, 1]
  scatterDimsToOperandDims := [0, 1]
  indexVectorDim := 1
  wf := wf

theorem scat2_resultIdx {M N E w : Nat} (wf : ScatterDims.WF ⟨2, ![M, N]⟩ ⟨2, ![E, 2]⟩ ⟨1, ![E]⟩ [] [0, 1] [0, 1] 1)
    (idx : IVec ⟨2, ![E, 2]⟩ w) (e : Fin E) (a : Fin M) (b : Fin N) :
    (scat2 M N E wf).resultIdx? (ix1 e) idx = some (ix2 a b)
      ↔ (idx (ix2 e 0)).toInt = (a.val : Int) ∧ (idx (ix2 e 1)).toInt = (b.val : Int) := by
  have hs : ∀ c : Fin 2, (scat2 M N E wf).start (ix1 e) idx c = (idx (ix2 e c)).toInt := fun c => by
    have hc : c ∈ (scat2 M N E wf).scatterDimsToOperandDims := by fin_cases c <;> simp
    refine (dif_pos hc).trans (congrArg (fun z => (idx z).toInt) (funext fun b => Fin.ext ?_))
    match c, b with
    | ⟨0, _⟩, ⟨0, _⟩ => rfl
    | ⟨0, _⟩, ⟨1, _⟩ => rfl
    | ⟨1, _⟩, ⟨0, _⟩ => rfl
    | ⟨1, _⟩, ⟨1, _⟩ => rfl
  rw [resultIdx?_eq_some, Fin.forall_fin_two, hs, hs, window_eq_zero _ _ _ (by simp), window_eq_zero _ _ _ (by simp)]
  simp only [Nat.cast_zero, add_zero]

abbrev scat1 (M E : Nat) (wf : ScatterDims.WF ⟨1, ![M]⟩ ⟨2, ![E, 1]⟩ ⟨1, ![E]⟩ [] [0] [0] 1) :
    ScatterDims ⟨1, ![M]⟩ ⟨2, ![E, 1]⟩ ⟨1, ![E]⟩ where
  updateWindowDims := []
  insertedWindowDims := [0]
  scatterDimsToOperandDims := [0]
  indexVectorDim := 1
  wf := wf

theorem scat1_resultIdx {M E w : Nat} (wf : ScatterDims.WF ⟨1, ![M]⟩ ⟨2, ![E, 1]⟩ ⟨1, ![E]⟩ [] [0] [0] 1)
    (idx : IVec ⟨2, ![E, 1]⟩ w) (e : Fin E) (a : Fin M) :
    (scat1 M E wf).resultIdx? (ix1 e) idx = some (ix1 a) ↔ (idx (ix2 e 0)).toInt = (a.val : Int) := by
  have hs : (scat1 M E wf).start (ix1 e) idx 0 = (idx (ix2 e 0)).toInt := by
    refine (dif_pos List.mem_cons_self).trans (congrArg (fun z => (idx z).toInt) (funext fun b => Fin.ext ?_))
    match b with
    | ⟨0, _⟩ => rfl
    | ⟨1, _⟩ => rfl
  rw [resultIdx?_eq_some, Fin.forall_fin_one, hs, window_eq_zero _ _ _ (by simp)]
  simp only [Nat.cast_zero, add_zero]

theorem pow_nonneg_of_pos (x y : EReal) (hx : 0 < x) : 0 ≤ Ideal.pow x y := by
  induction x using EReal.rec with
  | bot => exact absurd hx (by simp)
  | top => exact ite_nonneg le_top (ite_nonneg zero_le_one le_rfl)
  | coe r =>
    have hr : ¬r < 0 := not_lt.2 (EReal.coe_nonneg.1 hx.le)
    induction y using EReal.rec with
    | bot => rw [Ideal.pow_coe_bot, if_neg hr]; exact ite_nonneg le_rfl (ite_nonneg zero_le_one le_top)
    | top => rw [Ideal.pow_coe_top, if_neg hr]; exact ite_nonneg le_top (ite_nonneg zero_le_one le_rfl)
    | coe s => exact EReal.coe_nonneg.2 (Real.rpow_nonneg (not_lt.1 hr) s)

theorem dInvK_nonneg (rs : FVec Ideal Cert.KernelIdeal.S9000 .f32) (k : Cert.KernelIdeal.S9000.Idx) :
    0 ≤ Cert.KernelIdeal.Hand.dInv rs k := by
  show 0 ≤ Scalar.select (Ideal.cmp .ogt (rs k) (Ideal.ofBits .f32 0x00000000#32))
    (Ideal.pow (rs k) (Ideal.ofBits .f32 0xBF000000#32)) (Ideal.ofBits .f32 0x00000000#32)
  rw [Ideal.ofBits_zero_f32]
  unfold Scalar.select
  split
  · next h =>
    refine pow_nonneg_of_pos _ _ ?_
    by_contra hn
    have : Ideal.cmp .ogt (rs k) 0 = 0#1 := by
      unfold Ideal.cmp
      simp [hn]
    rw [this] at h
    exact absurd h (by decide)
  · exact le_refl _

-- a scatter-add into zeros, read at i, is the sum of the updates that land on i
theorem scatterZeros_apply {s si u : Shape} (d : ScatterDims s si u) {w : Nat} (dims : Fin (⟨0, ![]⟩ : Shape).rank → Fin s.rank)
    (h : (⟨0, ![]⟩ : Shape).BroadcastsInDim s dims) (idx : IVec si w) (upd : u.Idx → EReal) (i : s.Idx)
    (p : u.Idx → Prop) [DecidablePred p] (hp : ∀ j, d.resultIdx? j idx = some i ↔ p j) :
    Ideal.hostScatterAdd d (broadcastInDim s dims h (constant (F := Ideal) ⟨0, ![]⟩ .f32 0x00000000#32)) idx upd i
      = ∑ j ∈ Finset.univ.filter p, upd j := by
  unfold Ideal.hostScatterAdd
  rw [show broadcastInDim s dims h (constant (F := Ideal) ⟨0, ![]⟩ .f32 0x00000000#32) i = 0 from Ideal.ofBits_zero_f32, zero_add]
  exact Finset.sum_congr (Finset.filter_congr fun j _ => hp j) fun _ _ => rfl

section Stages
variable (src tgt : IVec Cert.KernelIdeal.S200000 32) (w : FVec Ideal Cert.KernelIdeal.S200000 .f32)

theorem rowSumK_apply (i : Fin 9000) :
    Cert.KernelIdeal.Hand.rowSumK src w (ix1 i)
      = ∑ e ∈ Finset.univ.filter (fun e : Cert.KernelIdeal.S200000.Idx => (src e).toInt = (i.val : Int)), w e :=
  scatterZeros_apply Cert.KernelIdeal.scatter_S9000_S200000x1_S200000_n_0_0_1 _ _ (Cert.KernelIdeal.Hand.col src) w (ix1 i) _ fun e => by
    obtain ⟨e', rfl⟩ : ∃ e', e = ix1 e' := ⟨e 0, eq_ix1 e⟩
    exact (scat1_resultIdx Cert.KernelIdeal.Facts₀.scatter_S9000_S200000x1_S200000_n_0_0_1_wf _ e' i).trans (by rw [colK_apply])

-- the pair scatter of both programs: entry (i, j) is the sum of the updates of the edges from i to j
theorem pairScatter_apply {M N : Nat} (wf : ScatterDims.WF ⟨2, ![M, N]⟩ ⟨2, ![200000, 2]⟩ ⟨1, ![200000]⟩ [] [0, 1] [0, 1] 1)
    (dims : Fin (⟨0, ![]⟩ : Shape).rank → Fin 2) (h : (⟨0, ![]⟩ : Shape).BroadcastsInDim ⟨2, ![M, N]⟩ dims) (n : BitVec 32)
    (hs : ∀ e : Fin 200000, 0 ≤ (src (ix1 e)).toInt) (ht : ∀ e : Fin 200000, 0 ≤ (tgt (ix1 e)).toInt) (i : Fin M) (j : Fin N) :
    Ideal.hostScatterAdd (scat2 M N 200000 wf) (broadcastInDim ⟨2, ![M, N]⟩ dims h (constant (F := Ideal) ⟨0, ![]⟩ .f32 0x00000000#32))
        (Cert.KernelIdeal.Hand.idxPair (Cert.KernelIdeal.Hand.wrapBy n src) (Cert.KernelIdeal.Hand.wrapBy n tgt)) w (ix2 i j)
      = ∑ e ∈ Finset.univ.filter (fun e : Cert.KernelIdeal.S200000.Idx =>
          (src e).toInt = (i.val : Int) ∧ (tgt e).toInt = (j.val : Int)), w e := by
  rw [wrapK_eq _ src hs, wrapK_eq _ tgt ht]
  refine scatterZeros_apply _ _ _ _ w _ _ fun e => ?_
  obtain ⟨e', rfl⟩ : ∃ e', e = ix1 e' := ⟨e 0, eq_ix1 e⟩
  exact (scat2_resultIdx wf _ e' i j).trans (by rw [idxPairK_apply0, idxPairK_apply1])

theorem adj_apply (hs : ∀ e : Fin 200000, 0 ≤ (src (ix1 e)).toInt) (ht : ∀ e : Fin 200000, 0 ≤ (tgt (ix1 e)).toInt) (i j : Fin 9000) :
    Cert.ReferenceIdeal.Hand.adj src tgt w (ix2 i j)
      = ∑ e ∈ Finset.univ.filter (fun e : Cert.KernelIdeal.S200000.Idx =>
          (src e).toInt = (i.val : Int) ∧ (tgt e).toInt = (j.val : Int)), w e :=
  pairScatter_apply src tgt w Cert.ReferenceIdeal.Facts₀.scatter_S9000x9000_S200000x2_S200000_n_01_01_1_wf _ _ 9000#32 hs ht i j

-- a node vector gathered at an endpoint that is node n reads entry n (the gather clamps the signed index into the vector)
theorem dAtK_apply (d : FVec Ideal Cert.KernelIdeal.S9000 .f32) (i : IVec Cert.KernelIdeal.S200000 32)
    (hi : Cert.Spec.VecInRange i) (e : Fin 200000) (n : Fin 9000) (hn : (i (ix1 e)).toInt = (n.val : Int)) :
    Cert.KernelIdeal.Hand.dAt d i (ix1 e) = d (ix1 n) := by
  unfold Cert.KernelIdeal.Hand.dAt
  rw [wrapK_eq _ i (fun e => (hi e).1)]
  have h := StableHlo.Predicate.gather_take Cert.KernelIdeal.gather_S9000_S200000x1_S200000_n_0_n_n_0_1_1 rfl rfl rfl rfl d
    (Cert.KernelIdeal.Hand.col i) e (by decide)
  have e1 : ∀ {n : Nat} (p : Fin n), Shape.Idx.ofFin p = ix1 p := fun p => funext fun a => by match a with | ⟨0, _⟩ => rfl
  have e2 : StableHlo.Predicate.ixP e = ix2 e 0 := funext fun a => by match a with | ⟨0, _⟩ => rfl | ⟨1, _⟩ => rfl
  simp only [e1, e2] at h
  refine h.trans (congrArg d (congrArg ix1 (Fin.ext ?_)))
  show min ((Cert.KernelIdeal.Hand.col i (ix2 e 0)).toInt.toNat) (9000 - 1) = n.val
  rw [colK_apply, hn]
  have := n.isLt
  omega

end Stages

theorem rowSumR_apply (A : FVec Ideal Cert.ReferenceIdeal.S9000x9000 .f32) (i : Fin 9000) :
    Cert.ReferenceIdeal.Hand.rowSumR A (ix1 i) = ∑ k : Fin 9000, A (ix2 i k) := by
  have h : Cert.ReferenceIdeal.S9000x9000.Reduces [1] Cert.ReferenceIdeal.S9000 := by decide
  show Ideal.hostReduceAdd Cert.ReferenceIdeal.Facts₀.reducesTo_S9000x9000_S9000_d1 A (Ideal.ofBits .f32 0x00000000#32) (ix1 i) = _
  rw [Ideal.hostReduceAdd_single _ h, Ideal.ofBits_zero_f32, zero_add]
  exact Finset.sum_congr rfl fun k _ => congrArg A (funext fun a => Fin.ext (by match a with | ⟨0, _⟩ => rfl | ⟨1, _⟩ => rfl))

theorem gcnOf_apply (A : FVec Ideal Cert.ReferenceIdeal.S9000x9000 .f32) (d : FVec Ideal Cert.ReferenceIdeal.S9000 .f32) (i j : Fin 9000) :
    Cert.ReferenceIdeal.Hand.gcnOf A d (ix2 i j) = (d (ix1 i) * A (ix2 i j)) * d (ix1 j) := by
  unfold Cert.ReferenceIdeal.Hand.gcnOf
  rw [mulf_apply, mulf_apply]
  exact congrArg₂ (fun a b => a * A (ix2 i j) * b)
    ((broadcastInDim_apply _ _ _ _ (ix2 i (0 : Fin 1)) fun a => by match a with | ⟨0, _⟩ => rfl | ⟨1, _⟩ => rfl).trans
      (broadcastInDim_apply _ _ d _ (ix1 i) fun a => by match a with | ⟨0, _⟩ => rfl))
    ((broadcastInDim_apply _ _ _ _ (ix2 (0 : Fin 1) j) fun a => by match a with | ⟨0, _⟩ => rfl | ⟨1, _⟩ => rfl).trans
      (broadcastInDim_apply _ _ d _ (ix1 j) fun a => by match a with | ⟨0, _⟩ => rfl))

-- on the extended reals a factor distributes over a finite sum of terms that are not negative
theorem mul_sum_of_nonneg {ι : Type*} (s : Finset ι) (f : ι → EReal) (c : EReal) (hf : ∀ i, 0 ≤ f i) :
    c * ∑ i ∈ s, f i = ∑ i ∈ s, c * f i :=
  (Finset.sum_hom_rel (r := fun x y => 0 ≤ x ∧ c * x = y) ⟨le_rfl, mul_zero c⟩ fun a x y h =>
    ⟨add_nonneg (hf a) h.1, by rw [EReal.left_distrib_of_nonneg (hf a) h.1, h.2]⟩).2

theorem sum_mul_of_nonneg {ι : Type*} (s : Finset ι) (f : ι → EReal) (c : EReal) (hf : ∀ i, 0 ≤ f i) :
    (∑ i ∈ s, f i) * c = ∑ i ∈ s, f i * c := by
  rw [mul_comm, mul_sum_of_nonneg s f c hf]
  exact Finset.sum_congr rfl fun i _ => mul_comm _ _

theorem dInvR_eq_dInvK : @Cert.ReferenceIdeal.Hand.dInv = @Cert.KernelIdeal.Hand.dInv := rfl

-- the edges from i, sorted by their target, are the edges from i
theorem rowSum_eq (src tgt : IVec Cert.KernelIdeal.S200000 32) (w : FVec Ideal Cert.KernelIdeal.S200000 .f32)
    (hs : Cert.Spec.VecInRange src) (ht : Cert.Spec.VecInRange tgt) :
    Cert.ReferenceIdeal.Hand.rowSumR (Cert.ReferenceIdeal.Hand.adj src tgt w) = Cert.KernelIdeal.Hand.rowSumK src w := by
  funext k
  obtain ⟨i, rfl⟩ : ∃ i, k = ix1 i := ⟨k 0, eq_ix1 k⟩
  rw [rowSumR_apply]
  refine Eq.trans ?_ (rowSumK_apply src w i).symm
  have htr : ∀ e : Cert.KernelIdeal.S200000.Idx, (tgt e).toInt.toNat < 9000 := by
    intro e
    obtain ⟨e', rfl⟩ : ∃ e', e = ix1 e' := ⟨e 0, eq_ix1 e⟩
    have := ht e'; omega
  rw [← Finset.sum_fiberwise (Finset.univ.filter (fun e : Cert.KernelIdeal.S200000.Idx => (src e).toInt = (i.val : Int)))
    (fun e => (⟨(tgt e).toInt.toNat, htr e⟩ : Fin 9000)) w]
  refine Finset.sum_congr rfl fun k _ => ?_
  rw [adj_apply src tgt w (fun e => (hs e).1) (fun e => (ht e).1) i k]
  refine Finset.sum_congr ?_ fun _ _ => rfl
  ext e
  simp only [Finset.mem_filter, Finset.mem_univ, true_and]
  refine and_congr_right fun _ => ?_
  obtain ⟨e', rfl⟩ : ∃ e', e = ix1 e' := ⟨e 0, eq_ix1 e⟩
  have := ht e'
  rw [Fin.ext_iff]
  show (tgt (ix1 e')).toInt = (k.val : Int) ↔ (tgt (ix1 e')).toInt.toNat = k.val
  omega

theorem gcn_eq (src tgt : IVec Cert.KernelIdeal.S200000 32) (w : FVec Ideal Cert.KernelIdeal.S200000 .f32)
    (hs : Cert.Spec.VecInRange src) (ht : Cert.Spec.VecInRange tgt) (hw0 : ∀ e, 0 ≤ w e) (hw1 : ∀ e, w e ≤ 1) (i j : Fin 9088) :
    Cert.KernelIdeal.Hand.gcnPad src tgt (Cert.KernelIdeal.Hand.scaledW w (Cert.KernelIdeal.Hand.dInv (Cert.KernelIdeal.Hand.rowSumK src w)) src tgt) (Idealize.ShloMosaic.ValueIdx.ix2 i j)
      = if h : i.val < 9000 ∧ j.val < 9000 then
          Cert.ReferenceIdeal.Hand.gcnOf (Cert.ReferenceIdeal.Hand.adj src tgt w) (Cert.ReferenceIdeal.Hand.dInv (Cert.ReferenceIdeal.Hand.rowSumR (Cert.ReferenceIdeal.Hand.adj src tgt w))) (Idealize.ShloMosaic.ValueIdx.ix2 ⟨i.val, h.1⟩ ⟨j.val, h.2⟩)
        else 0 := by
  have hs0 : ∀ e : Fin 200000, 0 ≤ (src (ix1 e)).toInt := fun e => (hs e).1
  have ht0 : ∀ e : Fin 200000, 0 ≤ (tgt (ix1 e)).toInt := fun e => (ht e).1
  refine (pairScatter_apply src tgt _ Cert.KernelIdeal.Facts₀.scatter_S9088x9088_S200000x2_S200000_n_01_01_1_wf _ _ 9088#32 hs0 ht0 i j).trans ?_
  by_cases h : i.val < 9000 ∧ j.val < 9000
  · rw [dif_pos h, rowSum_eq src tgt w hs ht, dInvR_eq_dInvK]
    generalize hd : Cert.KernelIdeal.Hand.dInv (Cert.KernelIdeal.Hand.rowSumK src w) = d
    have hdn : ∀ k, 0 ≤ d k := fun k => hd ▸ dInvK_nonneg _ k
    rw [gcnOf_apply, adj_apply src tgt w hs0 ht0 ⟨i.val, h.1⟩ ⟨j.val, h.2⟩,
      mul_sum_of_nonneg _ _ _ hw0,
      sum_mul_of_nonneg _ _ _ fun e => EReal.mul_nonneg (hdn _) (hw0 e)]
    refine Finset.sum_congr rfl fun e he => ?_
    rw [Finset.mem_filter] at he
    obtain ⟨e', rfl⟩ : ∃ e', e = ix1 e' := ⟨e 0, eq_ix1 e⟩
    show (w (ix1 e') * Cert.KernelIdeal.Hand.dAt d src (ix1 e')) * Cert.KernelIdeal.Hand.dAt d tgt (ix1 e') = _
    rw [dAtK_apply d src hs e' ⟨i.val, h.1⟩ he.2.1, dAtK_apply d tgt ht e' ⟨j.val, h.2⟩ he.2.2, mul_comm (w (ix1 e'))]
  · rw [dif_neg h]
    refine Finset.sum_eq_zero fun e he => absurd ?_ h
    rw [Finset.mem_filter] at he
    obtain ⟨e', rfl⟩ : ∃ e', e = ix1 e' := ⟨e 0, eq_ix1 e⟩
    have := hs e'; have := ht e'; have := he.2.1; have := he.2.2
    constructor <;> omega

end Cert.Math
end
-- ==== Proof.MathLayer.lean ====
import proofs.«174456_j18270790877215_2_alg».proof.Proof.SpecK
import proofs.«174456_j18270790877215_2_alg».proof.Proof.SpecR
import Idealize.ShloMosaic.Lib.ValueLayout
import Idealize.ShloMosaic.Lib.StackMember
import Mathlib.Algebra.BigOperators.Fin

noncomputable section

open scoped BigOperators

namespace Cert.Math

open Idealize.ShloMosaic ValueIdx StackMember KernelIdeal.Hand ReferenceIdeal ReferenceIdeal.Facts₀ ReferenceIdeal.Hand Spec

abbrev Mat (a b : ℕ) := FVec Ideal ⟨2, ![a, b]⟩ .f32

abbrev up (i : Fin 9000) : Fin 9088 := ⟨i.val, by omega⟩
abbrev lo (k : Fin 512) : Fin 1024 := ⟨k.val, by omega⟩
abbrev hi (k : Fin 512) : Fin 1024 := ⟨512 + k.val, by omega⟩

theorem sum_9088 {M : Type*} [AddCommMonoid M] (f : Fin 9088 → M) :
    ∑ l : Fin 9088, f l = ∑ l : Fin 9000, f (up l) + ∑ l : Fin 88, f ⟨9000 + l.val, by omega⟩ :=
  Fin.sum_univ_add (a := 9000) (b := 88) f

theorem sum_1024 {M : Type*} [AddCommMonoid M] (f : Fin 1024 → M) :
    ∑ c : Fin 1024, f c = ∑ k : Fin 512, f (lo k) + ∑ k : Fin 512, f (hi k) :=
  Fin.sum_univ_add (a := 512) (b := 512) f

theorem xPad_apply (f : Mat 9000 512) (i : Fin 9000) (k : Fin 512) : xPad f (ix2 (up i) k) = f (ix2 i k) :=
  pad_apply_of_inside _ _ _ f _ _ _ (ix2 (up i) k) (ix2 i k) fun a =>
    match a with
    | ⟨0, _⟩ => by show i.val = 0 + i.val * (0 + 1); omega
    | ⟨1, _⟩ => by show k.val = 0 + k.val * (0 + 1); omega

theorem unpad_apply (x : Mat 9088 512) (i : Fin 9000) (q : Fin 512) : unpad x (ix2 i q) = x (ix2 (up i) q) :=
  slice2_axis0_apply 0 x _ i q (up i) (Nat.zero_add _).symm

theorem w2a_apply (w : Mat 512 1024) (k q : Fin 512) : w2a w (ix2 k q) = w (ix2 q (lo k)) :=
  (transpose_ix2_apply _ _ k q).trans (slice2_axis1_apply 0 w KernelIdeal.Facts₀.slices_S512x1024_S512x512_0_0 q k (lo k) (Nat.zero_add _).symm)

theorem w2b_apply (w : Mat 512 1024) (k q : Fin 512) : w2b w (ix2 k q) = w (ix2 q (hi k)) :=
  (transpose_ix2_apply _ _ k q).trans (slice2_axis1_apply 512 w KernelIdeal.Facts₀.slices_S512x1024_S512x512_0_512 q k (hi k) rfl)

theorem cat_lo (A B : Mat 9000 512) (i : Fin 9000) (k : Fin 512) :
    concatenate S9000x1024 1 [⟨S9000x512, A⟩, ⟨S9000x512, B⟩] concatenates_S9000x512_S9000x512_S9000x1024_d1 (ix2 i (lo k)) = A (ix2 i k) :=
  concatenate_pair_apply_left 1 A B _ (ix2 i (lo k)) rfl (ix2 i k) fun b => match b with | ⟨0, _⟩ => rfl | ⟨1, _⟩ => rfl

theorem cat_hi (A B : Mat 9000 512) (i : Fin 9000) (k : Fin 512) :
    concatenate S9000x1024 1 [⟨S9000x512, A⟩, ⟨S9000x512, B⟩] concatenates_S9000x512_S9000x512_S9000x1024_d1 (ix2 i (hi k)) = B (ix2 i k) :=
  concatenate_pair_apply_right 1 A B _ (ix2 i (hi k)) rfl rfl (ix2 i k)
    (fun b hb => match b, hb with | ⟨0, _⟩, _ => rfl | ⟨1, _⟩, hb => absurd rfl hb) (Nat.add_comm _ _)

theorem lreluR_apply (y : Mat 9000 512) (j : S9000x512.Idx) : lreluR y j = lrelu (y j) := rfl

-- The padded adjacency is zero past column 9000, and the 1024-row weight splits into its two halves.
theorem layer_eq (g' : Mat 9088 9088) (g : Mat 9000 9000) (x' : Mat 9088 512) (x : Mat 9000 512) (w1 : Mat 512 512) (w2 : Mat 512 1024)
    (hg : ∀ (i : Fin 9000) (j : Fin 9088), g' (ix2 (up i) j) = if h : j.val < 9000 then g (ix2 i ⟨j.val, h⟩) else 0)
    (hx : ∀ (i : Fin 9000) (k : Fin 512), x' (ix2 (up i) k) = x (ix2 i k)) (i : Fin 9000) (q : Fin 512) :
    layerK g' x' w1 w2 (ix2 (up i) q) = layerR g x w1 w2 (ix2 i q) := by
  have hnb : ∀ k : Fin 512, nbAt g' (projArr x' (w1t w1)) (up i) k = nbR g x w1 (ix2 i k) := fun k => by
    refine ((sum_9088 _).trans ?_).trans (dotGeneral_plain_apply none g _ i k).symm
    refine (congrArg₂ (· + ·) (Finset.sum_congr rfl fun l _ => ?_) (Finset.sum_eq_zero fun l _ => ?_)).trans (add_zero _)
    · rw [hg i (up l), dif_pos (show (up l).val < 9000 from l.isLt)]
      refine congrArg _ (.trans ?_ (dotGeneral_plain_apply none x _ l k).symm)
      show projAt x' (w1t w1) (up l) k = _
      exact Finset.sum_congr rfl fun m _ => by rw [hx l m]; rfl
    · rw [hg i ⟨9000 + l.val, by omega⟩, dif_neg (by show ¬(9000 + l.val < 9000); omega), zero_mul]
  show layerAt g' x' (projArr x' (w1t w1)) (w2a w2) (w2b w2) (up i) q = lreluR (F := Ideal) _ (ix2 i q)
  rw [lreluR_apply]
  unfold layerAt
  refine congrArg lrelu (.trans ?_ ((dotGeneral_plain_apply none _ _ i q).trans (sum_1024 _)).symm)
  refine congrArg₂ (· + ·) (Finset.sum_congr rfl fun k _ => ?_) (Finset.sum_congr rfl fun k _ => ?_)
  · rw [cat_lo, transpose_ix2_apply, addf_apply, hx i k, hnb k, w2a_apply]
  · rw [cat_hi, transpose_ix2_apply, mulf_apply, hx i k, hnb k, w2b_apply]

end Cert.Math

end
-- ==== Proof.MathOut.lean ====
import proofs.«174456_j18270790877215_2_alg».proof.Proof.PreRangeK
import proofs.«174456_j18270790877215_2_alg».proof.Proof.MathShared
import proofs.«174456_j18270790877215_2_alg».proof.Proof.MathGcn
import proofs.«174456_j18270790877215_2_alg».proof.Proof.MathLayer

noncomputable section

namespace Cert.Math

open Idealize.ShloMosaic ValueIdx KernelIdeal

-- Both programs build the same normalised adjacency, up to zero padding, and apply the same two layers to it.
theorem kOut_eq_rOut (a0 a1 a2 : FVec Ideal S3000x512 .f32) (a3 : IVec S2x200000 32)
    (a4 : FVec Ideal S128x512 .f32) (a5 : FVec Ideal S128x256 .f32)
    (a6 : FVec Ideal S128 .f32) (a7 : FVec Ideal S1x128 .f32) (a8 : FVec Ideal S1 .f32)
    (a9 : FVec Ideal S512x512 .f32) (a10 : FVec Ideal S512x1024 .f32)
    (a11 : FVec Ideal S512x512 .f32) (a12 : FVec Ideal S512x1024 .f32)
    (hr : Spec.InRange a3) :
    Hand.kOut a0 a1 a2 a3 a4 a5 a6 a7 a8 a9 a10 a11 a12
      = ReferenceIdeal.Hand.rOut a0 a1 a2 a3 a4 a5 a6 a7 a8 a9 a10 a11 a12 := by
  have hg (i : Fin 9000) (j : Fin 9088) : Hand.gcnK a0 a1 a2 a3 a4 a5 a6 a7 a8 (ix2 (up i) j)
      = if h : j.val < 9000 then ReferenceIdeal.Hand.gcnR a0 a1 a2 a3 a4 a5 a6 a7 a8 (ix2 i ⟨j.val, h⟩) else 0 := by
    unfold Hand.gcnK ReferenceIdeal.Hand.gcnR
    rw [shared_eq, shared_eq]
    refine (gcn_eq _ _ _ (srcOf_inRange a3 hr) (tgtOf_inRange a3 hr) (fun e => edgeOut_nonneg _ a7 a8 e)
      (fun e => edgeOut_le_one _ a7 a8 e) (up i) j).trans ?_
    by_cases hj : j.val < 9000
    · rw [dif_pos (And.intro i.isLt hj), dif_pos hj]; rfl
    · rw [dif_neg (mt And.right hj), dif_neg hj]
  funext idx
  obtain ⟨i, q, rfl⟩ : ∃ (i : Fin 9000) (q : Fin 512), idx = ix2 i q := ⟨idx 0, idx 1, eq_ix2 idx⟩
  exact (unpad_apply _ i q).trans
    (layer_eq _ _ _ _ a11 a12 hg (fun i k => layer_eq _ _ _ _ a9 a10 hg (fun i k => xPad_apply _ i k) i k) i q)

end Cert.Math

end
-- ==== Proof.PreRange.lean ====
import proofs.«174456_j18270790877215_2_alg».proof.Proof.Gen.Pre_finite_inputs
import proofs.«174456_j18270790877215_2_alg».proof.Proof.SpecRange
import Idealize.ShloMosaic.Lib.ReduceAll
import Idealize.ShloMosaic.Lib.StableHlo.Predicate
import Idealize.ShloMosaic.Lib.ValueIdx

namespace Cert.Math

open Idealize.ShloMosaic Idealize.ShloMosaic.ValueIdx Cert.Pre_finite_inputs

instance subsingleton_S_ : Subsingleton S_.Idx := ⟨fun _ _ => funext fun d => d.elim0⟩

-- The last conjunct is an "and" over all entries of the two comparisons, so each entry passes both.
theorem inRange_of_pre {F : FTy → Type} [FloatOps F] (a0 a1 a2 : FVec F S3000x512 .f32) (a3 : IVec S2x200000 32)
    (a4 : FVec F S128x512 .f32) (a5 : FVec F S128x256 .f32) (a6 : FVec F S128 .f32) (a7 : FVec F S1x128 .f32)
    (a8 : FVec F S1 .f32) (a9 : FVec F S512x512 .f32) (a10 : FVec F S512x1024 .f32) (a11 : FVec F S512x512 .f32)
    (a12 : FVec F S512x1024 .f32)
    (h : fn (F := F) a0 a1 a2 a3 a4 a5 a6 a7 a8 a9 a10 a11 a12 = fun _ => 1#1) : Cert.Spec.InRange a3 := by
  intro k e
  have h0 := congrFun h ix0
  dsimp only [fn, fn_part1, fn_part2, fn_part3] at h0
  have h3 := IntOp.andi_eq_one.1 (Host.reduce_andi_all _ _ _ _ _ (IntOp.andi_eq_one.1 h0).2 (ix2 k e))
  exact ⟨by simpa [broadcastInDim, constantI] using IntOp.cmpi_sge.1 h3.1,
    by simpa [broadcastInDim, constantI] using IntOp.cmpi_slt.1 h3.2⟩

end Cert.Math
-- ==== Proof.lean ====
import proofs.«174456_j18270790877215_2_alg».proof.Defs
import proofs.«174456_j18270790877215_2_alg».proof.Proof.Gen.Pre_finite_inputs
import proofs.«174456_j18270790877215_2_alg».proof.Proof.KArgs
import proofs.«174456_j18270790877215_2_alg».proof.Proof.KIArgs
import proofs.«174456_j18270790877215_2_alg».proof.Proof.KIVal
import proofs.«174456_j18270790877215_2_alg».proof.Proof.RefVal
import proofs.«174456_j18270790877215_2_alg».proof.Proof.MathOut
import proofs.«174456_j18270790877215_2_alg».proof.Proof.PreRange
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8, e9, e10, e11, e12⟩ := hagree c
  rw [e0, e1, e2, e3, e4, e5, e6, e7, e8, e9, e10, e11, e12]
  exact (Cert.Math.kOut_eq_rOut _ _ _ _ _ _ _ _ _ _ _ _ _ (Cert.Math.inRange_of_pre _ _ _ _ _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
